-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.truncf_extf.Statement Cert.KernelIdeal.S6400x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000 : Shape := ⟨1, ![320000]⟩
abbrev S320000x128 : Shape := ⟨2, ![320000, 128]⟩
abbrev S100000 : Shape := ⟨1, ![100000]⟩
abbrev S4096 : Shape := ⟨1, ![4096]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S320000 : S_.BroadcastsInDim S320000 (![] : Fin 0 → Fin S320000.rank)
  reducesTo_S320000_S_d0 : S320000.ReducesTo [0] S_
  bcast_S_S100000 : S_.BroadcastsInDim S100000 (![] : Fin 0 → Fin S100000.rank)
  reducesTo_S100000_S_d0 : S100000.ReducesTo [0] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn_part4 {F : FTy → Type} [FloatOps F] (main_arg7 : IVec S4096 32) (main_v67 : IVec S_ 1) : IVec S_ 1 :=
  let main_c_26 : IVec S_ 32 := constantI S_ 32 0#32
  let main_v68 : IVec S4096 32 := broadcastInDim S4096 ![] bcast_S_S4096 main_c_26
  let main_v69 : IVec S4096 1 := cmpi .sge main_arg7 main_v68
  let main_c_27 : IVec S_ 32 := constantI S_ 32 100000#32
  let main_v70 : IVec S4096 32 := broadcastInDim S4096 ![] bcast_S_S4096 main_c_27
  let main_v71 : IVec S4096 1 := cmpi .slt main_arg7 main_v70
  let main_v72 : IVec S4096 1 := andi main_v69 main_v71
  let main_c_28 : IVec S_ 1 := constantI S_ 1 1#1
  let main_v73 : IVec S_ 1 := (fun x v => Host.reduce IntOp.andi x v reducesTo_S4096_S_d0 h_S_) main_v72 main_c_28
  let main_v74 : IVec S_ 1 := andi main_v67 main_v73
  main_v74

def fn_part3 {F : FTy → Type} [FloatOps F] (main_arg5 : IVec S4096 32) (main_arg6 : IVec S4096 32) (main_arg7 : IVec S4096 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_c_20 : IVec S_ 32 := constantI S_ 32 0#32
  let main_v54 : IVec S4096 32 := broadcastInDim S4096 ![] bcast_S_S4096 main_c_20
  let main_v55 : IVec S4096 1 := cmpi .sge main_arg5 main_v54
  let main_c_21 : IVec S_ 32 := constantI S_ 32 100000#32
  let main_v56 : IVec S4096 32 := broadcastInDim S4096 ![] bcast_S_S4096 main_c_21
  let main_v57 : IVec S4096 1 := cmpi .slt main_arg5 main_v56
  let main_v58 : IVec S4096 1 := andi main_v55 main_v57
  let main_c_22 : IVec S_ 1 := constantI S_ 1 1#1
  let main_v59 : IVec S_ 1 := (fun x v => Host.reduce IntOp.andi x v reducesTo_S4096_S_d0 h_S_) main_v58 main_c_22
  let main_v60 : IVec S_ 1 := andi main_v53 main_v59
  let main_c_23 : IVec S_ 32 := constantI S_ 32 0#32
  let main_v61 : IVec S4096 32 := broadcastInDim S4096 ![] bcast_S_S4096 main_c_23
  let main_v62 : IVec S4096 1 := cmpi .sge main_arg6 main_v61
  let main_c_24 : IVec S_ 32 := constantI S_ 32 100000#32
  let main_v63 : IVec S4096 32 := broadcastInDim S4096 ![] bcast_S_S4096 main_c_24
  let main_v64 : IVec S4096 1 := cmpi .slt main_arg6 main_v63
  let main_v65 : IVec S4096 1 := andi main_v62 main_v64
  let main_c_25 : IVec S_ 1 := constantI S_ 1 1#1
  let main_v66 : IVec S_ 1 := (fun x v => Host.reduce IntOp.andi x v reducesTo_S4096_S_d0 h_S_) main_v65 main_c_25
  let main_v67 : IVec S_ 1 := andi main_v60 main_v66
  fn_part4 (F := F) main_arg7 main_v67

def fn_part2 {F : FTy → Type} [FloatOps F] (main_arg5 : IVec S4096 32) (main_arg6 : IVec S4096 32) (main_arg7 : IVec S4096 32) (main_arg12 : FVec F S256x128 .f32) (main_arg13 : FVec F S128 .f32) (main_arg14 : FVec F S128x1 .f32) (main_arg15 : FVec F S1 .f32) (main_v33 : IVec S_ 1) : IVec S_ 1 :=
  let main_v34 : FVec F S256x128 .f32 := Host.absf main_arg12
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg13
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg14
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg15
  let main_cst_18 : FVec F S_ .f32 := constant S_ .f32 0x7F800000#32
  let main_v50 : FVec F S1 .f32 := broadcastInDim S1 ![] bcast_S_S1 main_cst_18
  fn_part3 (F := F) main_arg5 main_arg6 main_arg7 main_v48 main_v49 main_v50

def fn_part1 {F : FTy → Type} [FloatOps F] (main_arg5 : IVec S4096 32) (main_arg6 : IVec S4096 32) (main_arg7 : IVec S4096 32) (main_arg9 : FVec F S128 .f32) (main_arg10 : FVec F S256x128 .f32) (main_arg11 : FVec F S128 .f32) (main_arg12 : FVec F S256x128 .f32) (main_arg13 : FVec F S128 .f32) (main_arg14 : FVec F S128x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg9
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg10
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg11
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg5 main_arg6 main_arg7 main_arg12 main_arg13 main_arg14 main_arg15 main_v33

def fn {F : FTy → Type} [FloatOps F] (main_arg0 : IVec S320000 32) (main_arg1 : IVec S320000 32) (main_arg2 : FVec F S320000x128 .f32) (main_arg3 : FVec F S320000 .f32) (main_arg4 : FVec F S100000 .f32) (main_arg5 : IVec S4096 32) (main_arg6 : IVec S4096 32) (main_arg7 : IVec S4096 32) (main_arg8 : FVec F S128 .f32) (main_arg9 : FVec F S128 .f32) (main_arg10 : FVec F S256x128 .f32) (main_arg11 : FVec F S128 .f32) (main_arg12 : FVec F S256x128 .f32) (main_arg13 : FVec F S128 .f32) (main_arg14 : FVec F S128x1 .f32) (main_arg15 : FVec F S1 .f32) : IVec S_ 1 :=
  let main_v0 : FVec F S320000x128 .f32 := Host.absf main_arg2
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S320000 .f32 := Host.absf main_arg3
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S100000 .f32 := Host.absf main_arg4
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S128 .f32 := Host.absf main_arg8
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg9 main_arg10 main_arg11 main_arg12 main_arg13 main_arg14 main_arg15 main_v13 main_v16
-- ==== Kernel.lean ====
abbrev S320000 : Shape := ⟨1, ![320000]⟩
abbrev S320000x128 : Shape := ⟨2, ![320000, 128]⟩
abbrev S100000 : Shape := ⟨1, ![100000]⟩
abbrev S4096 : Shape := ⟨1, ![4096]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩
abbrev S320000x1 : Shape := ⟨2, ![320000, 1]⟩
abbrev S1x128 : Shape := ⟨2, ![1, 128]⟩
abbrev S320000x256 : Shape := ⟨2, ![320000, 256]⟩
abbrev S6400x128 : Shape := ⟨2, ![6400, 128]⟩
abbrev S6400x1 : Shape := ⟨2, ![6400, 1]⟩
abbrev S6400x256 : Shape := ⟨2, ![6400, 256]⟩
abbrev S12288 : Shape := ⟨1, ![12288]⟩
abbrev S12288x1 : Shape := ⟨2, ![12288, 1]⟩
abbrev S1x320000 : Shape := ⟨2, ![1, 320000]⟩
abbrev S12288x256 : Shape := ⟨2, ![12288, 256]⟩
abbrev S6144x1 : Shape := ⟨2, ![6144, 1]⟩
abbrev S1x6400 : Shape := ⟨2, ![1, 6400]⟩
abbrev S6144x256 : Shape := ⟨2, ![6144, 256]⟩
abbrev S6144x6400 : Shape := ⟨2, ![6144, 6400]⟩
abbrev S1x1 : Shape := ⟨2, ![1, 1]⟩
abbrev S4096x1 : Shape := ⟨2, ![4096, 1]⟩
abbrev S2048x256 : Shape := ⟨2, ![2048, 256]⟩
abbrev S2048x1 : Shape := ⟨2, ![2048, 1]⟩
abbrev S2048x128 : Shape := ⟨2, ![2048, 128]⟩

abbrev nBuf : Space → Nat
  | .hbm => 40
  | .vmem => 37
  | .smem => 0
  | _ => 0

abbrev bufTy : (tb : Table) → Fin (tcTables nBuf tb) → BufTy
  | .hbm, ⟨0, _⟩ => ⟨S320000, .i32⟩
  | .hbm, ⟨1, _⟩ => ⟨S320000, .i32⟩
  | .hbm, ⟨2, _⟩ => ⟨S320000x128, .f32⟩
  | .hbm, ⟨3, _⟩ => ⟨S320000, .f32⟩
  | .hbm, ⟨4, _⟩ => ⟨S100000, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S320000x1, .i32⟩
  | .hbm, ⟨24, _⟩ => ⟨S320000, .f32⟩
  | .hbm, ⟨25, _⟩ => ⟨S320000, .f32⟩
  | .hbm, ⟨26, _⟩ => ⟨S320000x1, .f32⟩
  | .hbm, ⟨27, _⟩ => ⟨S1x128, .f32⟩
  | .hbm, ⟨28, _⟩ => ⟨S1x128, .f32⟩
  | .hbm, ⟨29, _⟩ => ⟨S320000x256, .bf16⟩
  | .hbm, ⟨30, _⟩ => ⟨S320000x256, .bf16⟩
  | .hbm, ⟨31, _⟩ => ⟨S12288, .i32⟩
  | .hbm, ⟨32, _⟩ => ⟨S12288x1, .i32⟩
  | .hbm, ⟨33, _⟩ => ⟨S1x320000, .i32⟩
  | .hbm, ⟨34, _⟩ => ⟨S12288x256, .f32⟩
  | .hbm, ⟨35, _⟩ => ⟨S1x128, .f32⟩
  | .hbm, ⟨36, _⟩ => ⟨S1x128, .f32⟩
  | .hbm, ⟨37, _⟩ => ⟨S1x1, .f32⟩
  | .hbm, ⟨38, _⟩ => ⟨S4096x1, .f32⟩
  | .hbm, ⟨39, _⟩ => ⟨S4096x1, .f32⟩
  | .local _ .vmem, ⟨0, _⟩ => ⟨S6400x128, .f32⟩
  | .local _ .vmem, ⟨1, _⟩ => ⟨S6400x128, .f32⟩
  | .local _ .vmem, ⟨2, _⟩ => ⟨S6400x1, .f32⟩
  | .local _ .vmem, ⟨3, _⟩ => ⟨S6400x1, .f32⟩
  | .local _ .vmem, ⟨4, _⟩ => ⟨S1x128, .f32⟩
  | .local _ .vmem, ⟨5, _⟩ => ⟨S1x128, .f32⟩
  | .local _ .vmem, ⟨6, _⟩ => ⟨S6400x256, .bf16⟩
  | .local _ .vmem, ⟨7, _⟩ => ⟨S6400x256, .bf16⟩
  | .local _ .vmem, ⟨8, _⟩ => ⟨S6400x256, .bf16⟩
  | .local _ .vmem, ⟨9, _⟩ => ⟨S6400x256, .bf16⟩
  | .local _ .vmem, ⟨10, _⟩ => ⟨S6144x1, .i32⟩
  | .local _ .vmem, ⟨11, _⟩ => ⟨S6144x1, .i32⟩
  | .local _ .vmem, ⟨12, _⟩ => ⟨S1x6400, .i32⟩
  | .local _ .vmem, ⟨13, _⟩ => ⟨S1x6400, .i32⟩
  | .local _ .vmem, ⟨14, _⟩ => ⟨S6400x256, .bf16⟩
  | .local _ .vmem, ⟨15, _⟩ => ⟨S6400x256, .bf16⟩
  | .local _ .vmem, ⟨16, _⟩ => ⟨S6400x256, .bf16⟩
  | .local _ .vmem, ⟨17, _⟩ => ⟨S6400x256, .bf16⟩
  | .local _ .vmem, ⟨18, _⟩ => ⟨S6144x256, .f32⟩
  | .local _ .vmem, ⟨19, _⟩ => ⟨S6144x256, .f32⟩
  | .local _ .vmem, ⟨20, _⟩ => ⟨S6144x256, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S256x128, .f32⟩
  | .local _ .vmem, ⟨28, _⟩ => ⟨S1x128, .f32⟩
  | .local _ .vmem, ⟨29, _⟩ => ⟨S256x128, .f32⟩
  | .local _ .vmem, ⟨30, _⟩ => ⟨S1x128, .f32⟩
  | .local _ .vmem, ⟨31, _⟩ => ⟨S128x1, .f32⟩
  | .local _ .vmem, ⟨32, _⟩ => ⟨S1x1, .f32⟩
  | .local _ .vmem, ⟨33, _⟩ => ⟨S2048x1, .f32⟩
  | .local _ .vmem, ⟨34, _⟩ => ⟨S2048x1, .f32⟩
  | .local _ .vmem, ⟨35, _⟩ => ⟨S2048x1, .f32⟩
  | .local _ .vmem, ⟨36, _⟩ => ⟨S2048x1, .f32⟩
  | _, _ => ⟨S320000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg9_1 : Ref sig .tc := ⟨.vmem, 34, rfl⟩
abbrev cc2_stg10_0 : Ref sig .tc := ⟨.vmem, 35, rfl⟩
abbrev cc2_stg10_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem9_1 : DmaSem sig := 33
abbrev cc2_sem10_0 : DmaSem sig := 34
abbrev cc2_sem10_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6400x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 50], ![false, false]⟩

def k1_cond2 (i : grid1.Coords) : BitVec 1 :=
  let arg1 : BitVec 32 := BitVec.ofNat 32 (i 1).val
  let c49_i32 : BitVec 32 := 49#32
  let v29 : BitVec 1 := Scalar.cmpi .eq arg1 c49_i32
  let v30 : BitVec 32 := Scalar.extui v29
  let c0_i32_17 : BitVec 32 := 0#32
  let v31 : BitVec 1 := Scalar.cmpi .ne v30 c0_i32_17
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S6144x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x6400 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S6400x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S6400x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S6144x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2048x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  shapeCasts_S320000_S320000x1 : S320000.ShapeCasts S320000x1
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S6400x1_S6400x128 : S6400x1.Broadcasts S6400x128
  broadcasts_S1x128_S6400x128 : S1x128.Broadcasts S6400x128
  concatenates_S6400x128_S6400x128_S6400x256_d1 : Shape.Concatenates [S6400x128, S6400x128] S6400x256 1
  bitsLt_bf16_f32 : FTy.bits .bf16 < FTy.bits .f32
  inb_S6400x256_S6400x256_0_0 : ∀ a, (![0, 0] : Fin 2 → Nat) a + S6400x256.size a ≤ S6400x256.size a
  h_S6400x256 : 0 < S6400x256.numel
  packedbf16_S6400x256_S6400x256_0_0 : (Rect.unit (s := S6400x256) ![0, 0] S6400x256.size inb_S6400x256_S6400x256_0_0).PackedRows (EltTy.packing .bf16)
  concatenates_S4096_S4096_S4096_S12288_d0 : Shape.Concatenates [S4096, S4096, S4096] S12288 0
  shapeCasts_S12288_S12288x1 : S12288.ShapeCasts S12288x1
  shapeCasts_S320000_S1x320000 : S320000.ShapeCasts S1x320000
  inb_S6144x256_S6144x256_0_0 : ∀ a, (![0, 0] : Fin 2 → Nat) a + S6144x256.size a ≤ S6144x256.size a
  h_S6144x256 : 0 < S6144x256.numel
  shapeCasts_S6144x256_S6144x256 : S6144x256.ShapeCasts S6144x256
  inb_S6144x1_S6144x1_0_0 : ∀ a, (![0, 0] : Fin 2 → Nat) a + S6144x1.size a ≤ S6144x1.size a
  h_S6144x1 : 0 < S6144x1.numel
  shapeCasts_S6144x1_S6144x1 : S6144x1.ShapeCasts S6144x1
  inb_S1x6400_S1x6400_0_0 : ∀ a, (![0, 0] : Fin 2 → Nat) a + S1x6400.size a ≤ S1x6400.size a
  h_S1x6400 : 0 < S1x6400.numel
  shapeCasts_S1x6400_S1x6400 : S1x6400.ShapeCasts S1x6400
  broadcasts_S6144x1_S6144x6400 : S6144x1.Broadcasts S6144x6400
  broadcasts_S1x6400_S6144x6400 : S1x6400.Broadcasts S6144x6400
  natLt_1_32 : 1 < 32
  shapeCasts_S6400x256_S6400x256 : S6400x256.ShapeCasts S6400x256
  shapeCasts_S1_S1x1 : S1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  broadcasts_S1x128_S2048x128 : S1x128.Broadcasts S2048x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  gather_S100000_S320000x1_S320000_n_0_n_n_0_1_1_wf : GatherDims.WF S100000 S320000x1 S320000 [] [0] [] [0] [] 1 ![1]
  dot_S6144x6400_S6400x256_S6144x256_1_0_0_1_n_n_wf : DotDims.WF S6144x6400 S6400x256 S6144x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S320000x128.size a
  hwx0_0 : ∀ i : grid0.Coords, EltTy.bits .f32 = 32 ∨ (Rect.block (s := S320000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S320000x1.size a
  hwx0_1 : ∀ i : grid0.Coords, EltTy.bits .f32 = 32 ∨ (Rect.block (s := S320000x1) S6400x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x256.size a ≤ S320000x256.size a
  hwx0_4 : ∀ i : grid0.Coords, EltTy.bits .bf16 = 32 ∨ (Rect.block (s := S320000x256) S6400x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x256.size a ≤ S320000x256.size a
  hwx0_5 : ∀ i : grid0.Coords, EltTy.bits .bf16 = 32 ∨ (Rect.block (s := S320000x256) S6400x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6144x1.size a ≤ S12288x1.size a
  hwx1_0 : ∀ i : grid1.Coords, EltTy.bits .i32 = 32 ∨ (Rect.block (s := S12288x1) S6144x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x6400.size a ≤ S1x320000.size a
  hwx1_1 : ∀ i : grid1.Coords, EltTy.bits .i32 = 32 ∨ (Rect.block (s := S1x320000) S1x6400.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x256.size a ≤ S320000x256.size a
  hwx1_2 : ∀ i : grid1.Coords, EltTy.bits .bf16 = 32 ∨ (Rect.block (s := S320000x256) S6400x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6400x256.size a ≤ S320000x256.size a
  hwx1_3 : ∀ i : grid1.Coords, EltTy.bits .bf16 = 32 ∨ (Rect.block (s := S320000x256) S6400x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6144x256.size a ≤ S12288x256.size a
  hwx1_4 : ∀ i : grid1.Coords, EltTy.bits .f32 = 32 ∨ (Rect.block (s := S12288x256) S6144x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S12288x256.size a
  hwx2_0 : ∀ i : grid2.Coords, EltTy.bits .f32 = 32 ∨ (Rect.block (s := S12288x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S12288x256.size a
  hwx2_1 : ∀ i : grid2.Coords, EltTy.bits .f32 = 32 ∨ (Rect.block (s := S12288x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S12288x256.size a
  hwx2_2 : ∀ i : grid2.Coords, EltTy.bits .f32 = 32 ∨ (Rect.block (s := S12288x256) S2048x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .f32 = 32 ∨ (Rect.block (s := S128x1) S128x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x1.size a ≤ S4096x1.size a
  hwx2_9 : ∀ i : grid2.Coords, EltTy.bits .f32 = 32 ∨ (Rect.block (s := S4096x1) S2048x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2048x1.size a ≤ S4096x1.size a
  hwx2_10 : ∀ i : grid2.Coords, EltTy.bits .f32 = 32 ∨ (Rect.block (s := S4096x1) S2048x1.size (cc2_transform_10 i) (hinb2_10 i)).WholeWords (EltTy.packing .f32)

variable [Facts₀]

def gather_S100000_S320000x1_S320000_n_0_n_n_0_1_1 : GatherDims S100000 S320000x1 S320000 where
  offsetDims := []
  collapsedSliceDims := [0]
  operandBatchingDims := []
  startIndicesBatchingDims := []
  startIndexMap := [0]
  indexVectorDim := 1
  sliceSizes := ![1]
  wf := gather_S100000_S320000x1_S320000_n_0_n_n_0_1_1_wf
def dot_S6144x6400_S6400x256_S6144x256_1_0_0_1_n_n : DotDims S6144x6400 S6400x256 S6144x256 where
  lhsContracting := [1]
  rhsContracting := [0]
  lhsNonContracting := [0]
  rhsNonContracting := [1]
  lhsBatch := []
  rhsBatch := []
  wf := dot_S6144x6400_S6400x256_S6144x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg2) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S6400x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S6400x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S6144x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x6400.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11_0) S6400x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11_1) S6400x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S6144x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v15) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2048x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S128x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v18) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v19_0) S2048x1.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v19_1) S2048x1.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S320000 : Shape := ⟨1, ![320000]⟩
abbrev S320000x128 : Shape := ⟨2, ![320000, 128]⟩
abbrev S100000 : Shape := ⟨1, ![100000]⟩
abbrev S4096 : Shape := ⟨1, ![4096]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩
abbrev S320000x1 : Shape := ⟨2, ![320000, 1]⟩
abbrev S1x128 : Shape := ⟨2, ![1, 128]⟩
abbrev S320000x256 : Shape := ⟨2, ![320000, 256]⟩
abbrev S100000x256 : Shape := ⟨2, ![100000, 256]⟩
abbrev S4096x1 : Shape := ⟨2, ![4096, 1]⟩
abbrev S4096x256 : Shape := ⟨2, ![4096, 256]⟩
abbrev S4096x128 : Shape := ⟨2, ![4096, 128]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S320000, .i32⟩
  | .hbm, ⟨1, _⟩ => ⟨S320000, .i32⟩
  | .hbm, ⟨2, _⟩ => ⟨S320000x128, .f32⟩
  | .hbm, ⟨3, _⟩ => ⟨S320000, .f32⟩
  | .hbm, ⟨4, _⟩ => ⟨S100000, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S320000x1, .i32⟩
  | .hbm, ⟨24, _⟩ => ⟨S320000, .f32⟩
  | .hbm, ⟨25, _⟩ => ⟨S320000, .f32⟩
  | .hbm, ⟨26, _⟩ => ⟨S320000x1, .f32⟩
  | .hbm, ⟨27, _⟩ => ⟨S1x128, .f32⟩
  | .hbm, ⟨28, _⟩ => ⟨S320000x128, .f32⟩
  | .hbm, ⟨29, _⟩ => ⟨S320000x128, .f32⟩
  | .hbm, ⟨30, _⟩ => ⟨S320000x128, .f32⟩
  | .hbm, ⟨31, _⟩ => ⟨S1x128, .f32⟩
  | .hbm, ⟨32, _⟩ => ⟨S320000x128, .f32⟩
  | .hbm, ⟨33, _⟩ => ⟨S320000x128, .f32⟩
  | .hbm, ⟨34, _⟩ => ⟨S320000x128, .f32⟩
  | .hbm, ⟨35, _⟩ => ⟨S320000x256, .f32⟩
  | .hbm, ⟨36, _⟩ => ⟨S_, .f32⟩
  | .hbm, ⟨37, _⟩ => ⟨S100000x256, .f32⟩
  | .hbm, ⟨38, _⟩ => ⟨S320000x1, .i32⟩
  | .hbm, ⟨39, _⟩ => ⟨S100000x256, .f32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4096x256, .f32⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S4096x1, .i32⟩
  | .hbm, ⟨57, _⟩ => ⟨S4096x256, .f32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S4096x1, .i32⟩
  | .hbm, ⟨66, _⟩ => ⟨S4096x256, .f32⟩
  | .hbm, ⟨67, _⟩ => ⟨S4096x128, .f32⟩
  | .hbm, ⟨68, _⟩ => ⟨S1x128, .f32⟩
  | .hbm, ⟨69, _⟩ => ⟨S4096x128, .f32⟩
  | .hbm, ⟨70, _⟩ => ⟨S4096x128, .f32⟩
  | .hbm, ⟨71, _⟩ => ⟨S4096x128, .f32⟩
  | .hbm, ⟨72, _⟩ => ⟨S1x128, .f32⟩
  | .hbm, ⟨73, _⟩ => ⟨S4096x128, .f32⟩
  | .hbm, ⟨74, _⟩ => ⟨S4096x128, .f32⟩
  | .hbm, ⟨75, _⟩ => ⟨S4096x128, .f32⟩
  | .hbm, ⟨76, _⟩ => ⟨S1x128, .f32⟩
  | .hbm, ⟨77, _⟩ => ⟨S4096x128, .f32⟩
  | .hbm, ⟨78, _⟩ => ⟨S4096x128, .f32⟩
  | .hbm, ⟨79, _⟩ => ⟨S4096x128, .f32⟩
  | .hbm, ⟨80, _⟩ => ⟨S_, .f32⟩
  | .hbm, ⟨81, _⟩ => ⟨S4096x128, .f32⟩
  | .hbm, ⟨82, _⟩ => ⟨S4096x128, .f32⟩
  | .hbm, ⟨83, _⟩ => ⟨S4096x1, .f32⟩
  | .hbm, ⟨84, _⟩ => ⟨S1x1, .f32⟩
  | .hbm, ⟨85, _⟩ => ⟨S4096x1, .f32⟩
  | .hbm, ⟨86, _⟩ => ⟨S4096x1, .f32⟩
  | .hbm, ⟨87, _⟩ => ⟨S4096x128, .f32⟩
  | .hbm, ⟨88, _⟩ => ⟨S_, .f32⟩
  | .hbm, ⟨89, _⟩ => ⟨S4096x128, .f32⟩
  | .hbm, ⟨90, _⟩ => ⟨S4096x128, .f32⟩
  | .hbm, ⟨91, _⟩ => ⟨S4096x1, .f32⟩
  | .hbm, ⟨92, _⟩ => ⟨S1x1, .f32⟩
  | .hbm, ⟨93, _⟩ => ⟨S4096x1, .f32⟩
  | .hbm, ⟨94, _⟩ => ⟨S4096x1, .f32⟩
  | _, _ => ⟨S320000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call0_cst : Ref sig .tc := ⟨.hbm, 80, rfl⟩
abbrev main_call0_v0 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call1_cst : Ref sig .tc := ⟨.hbm, 88, rfl⟩
abbrev main_call1_v0 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S128_S1x128_1 : S128.BroadcastsInDim S1x128 (![1] : Fin 1 → Fin S1x128.rank)
  bcast_S320000x1_S320000x128_0_1 : S320000x1.BroadcastsInDim S320000x128 (![0, 1] : Fin 2 → Fin S320000x128.rank)
  bcast_S1x128_S320000x128_0_1 : S1x128.BroadcastsInDim S320000x128 (![0, 1] : Fin 2 → Fin S320000x128.rank)
  concatenates_S320000x128_S320000x128_S320000x256_d1 : Shape.Concatenates [S320000x128, S320000x128] S320000x256 1
  bcast_S_S100000x256 : S_.BroadcastsInDim S100000x256 (![] : Fin 0 → Fin S100000x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  gather_S100000_S320000x1_S320000_n_0_n_n_0_1_1_wf : GatherDims.WF S100000 S320000x1 S320000 [] [0] [] [0] [] 1 ![1]
  scatter_S100000x256_S320000x1_S320000x256_1_0_0_1_wf : ScatterDims.WF S100000x256 S320000x1 S320000x256 [1] [0] [0] 1
  gather_S100000x256_S4096x1_S4096x256_1_0_n_n_0_1_1256_wf : GatherDims.WF S100000x256 S4096x1 S4096x256 [1] [0] [] [0] [] 1 ![1, 256]
  dot_S4096x256_S256x128_S4096x128_1_0_0_1_n_n_wf : DotDims.WF S4096x256 S256x128 S4096x128 [1] [0] [0] [1] [] []
  dot_S4096x128_S128x1_S4096x1_1_0_0_1_n_n_wf : DotDims.WF S4096x128 S128x1 S4096x1 [1] [0] [0] [1] [] []

variable [Facts₀]

def gather_S100000_S320000x1_S320000_n_0_n_n_0_1_1 : GatherDims S100000 S320000x1 S320000 where
  offsetDims := []
  collapsedSliceDims := [0]
  operandBatchingDims := []
  startIndicesBatchingDims := []
  startIndexMap := [0]
  indexVectorDim := 1
  sliceSizes := ![1]
  wf := gather_S100000_S320000x1_S320000_n_0_n_n_0_1_1_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

class Facts : Prop extends Facts₀ where

variable [Facts]
-- ==== Proof.K.R0.lean ====
import proofs.«425388_j31877247271269_3_alg».proof.Proof.Gen.Kernel.Launch
import proofs.«425388_j31877247271269_3_alg».proof.Proof.Gen.Kernel.Skeleton
import proofs.«425388_j31877247271269_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev allEfeat : Rect S6400x128 := Rect.unit (s := S6400x128) ![0, 0] S6400x128.size inb_S6400x128_S6400x128_0_0
abbrev allTdiff : Rect S6400x1 := Rect.unit (s := S6400x1) ![0, 0] S6400x1.size inb_S6400x1_S6400x1_0_0
abbrev allRow : Rect S1x128 := Rect.unit (s := S1x128) ![0, 0] S1x128.size inb_S1x128_S1x128_0_0
abbrev allOut : Rect S6400x256 := Rect.unit (s := S6400x256) ![0, 0] S6400x256.size inb_S6400x256_S6400x256_0_0

def out0_4 (x0 : Vec F S6400x128 .f32) (x1 : Vec F S6400x1 .f32) (x2 x3 : Vec F S1x128 .f32) : Vec F S6400x256 .bf16 :=
  View.canon [⟨allOut, k0_pay2 (View.ld x0 allEfeat) (View.ld x1 allTdiff) (View.ld x2 allRow) (View.ld x3 allRow)⟩]

def out0_5 (x0 : Vec F S6400x128 .f32) (x1 : Vec F S6400x1 .f32) (x2 x3 : Vec F S1x128 .f32) : Vec F S6400x256 .bf16 :=
  View.canon [⟨allOut, k0_pay3 (View.ld x0 allEfeat) (View.ld x1 allTdiff) (View.ld x2 allRow) (View.ld x3 allRow)⟩]

theorem allOut_covers (p : Vec F S6400x256 .bf16) (y : S6400x256.Idx) :
    ∃ pc ∈ ([⟨allOut, p⟩] : List (View.Piece (Elt F) S6400x256 .bf16)), y ∈ pc.1.set :=
  View.cover_of_tiled [⟨allOut, p⟩] S6400x256.size (by rfl) y

set_option maxHeartbeats 1000000 in
theorem efeat_prologue_triple (c : Dev nD) (E : Set ℕ) (i : grid0.Coords)
    (arg1 : Memref sig .tc .vmem S6400x128 .f32) (harg1 : arg1.IsWhole) (arg2 : Memref sig .tc .vmem S6400x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S6400x256 .bf16) (harg5 : arg5.IsWhole) (arg6 : Memref sig .tc .vmem S6400x256 .bf16) (harg6 : arg6.IsWhole)
    (x0 : Vec F S6400x128 .f32) (x1 : Vec F S6400x1 .f32) (x2 x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (out0_5 x0 x1 x2 x3)) -∗ K ⟨⟩))
      ⊢ wp frame (wpE (defs₀ (F := F)) Variants.none c none) E
          (cc0__efeat_prologue_kernel i arg1 harg1 arg2 harg2 arg3 harg3 arg4 harg4 arg5 harg5 arg6 harg6) K := by
  simp only [cc0__efeat_prologue_kernel_eq_skeleton]; unfold cc0__efeat_prologue_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (allOut_covers _)
  iexists _; isplitr
  swap; · iexact H5
  ipureintro
  exact View.read_writes_eq_canon _ _ _ (allOut_covers _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_4 (c : Dev nD) (t : Fin cfg0.N) :
    (dat0 V c).after 4 t = out0_4 (iblk0 V c 0 t) (iblk0 V c 1 t) (iblk0 V c 2 t) (iblk0 V c 3 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

theorem body_obligation0 (c : Dev nD) : BodyObligation (dat0 (F := F) V c) (defs₀ (F := F)) Variants.none () Set.univ := fun t => by
  rw [bigSep_W0, bigSep_W0]
  simp only [(dat0 V c).before_in_eq_fetched 0 rfl (fun _ => rfl) (fun _ _ _ => rfl) (fun _ => rfl) t,
    (dat0 V c).before_in_eq_fetched 1 rfl (fun _ => rfl) (fun _ _ _ => rfl) (fun _ => rfl) t,
    (dat0 V c).before_in_eq_fetched 2 rfl (fun _ => rfl) (fun _ _ _ => rfl) (fun _ => rfl) t,
    (dat0 V c).before_in_eq_fetched 3 rfl (fun _ => rfl) (fun _ _ _ => rfl) (fun _ => rfl) t]
  rw [show (dat0 V c).Φ t.succ = (dat0 V c).Φ t.castSucc from rfl,
    show (dat0 V c).owesAt () t.succ = (dat0 V c).owesAt () t.castSucc from rfl, after0_4, after0_5]
  show _ ⊢ wp frame (wpE (defs₀ (F := F)) Variants.none c none) Set.univ (bodyAt0 t) _
  iintro ⟨HΦ, Ho, ⟨%d0, H0⟩, ⟨%d1, H1⟩, ⟨%d2, H2⟩, ⟨%d3, H3⟩, ⟨%d4, H4⟩, ⟨%d5, H5⟩⟩
  iapply (efeat_prologue_triple c Set.univ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro H
  isplitl [HΦ]; · iexact HΦ
  isplitl [Ho]; · iexact Ho
  iexact H

end Cert.Kernel.Hand

end
-- ==== Proof.K.R1Runs.lean ====
import proofs.«425388_j31877247271269_3_alg».proof.Proof.Gen.Kernel.Launch
import proofs.«425388_j31877247271269_3_alg».proof.Proof.Gen.Kernel.Skeleton
import proofs.«425388_j31877247271269_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)

abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev ms1_0 (t : Fin cfg1.N) : Memref sig .tc .vmem S6144x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x6400 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S6400x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6400x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S6144x256 .f32 := win1_4.stage (cfg1.slots t 4)
abbrev hs1_4 (t : Fin cfg1.N) : (ms1_4 t).IsWhole := hstage1_4 ((cfg1.slots t 4).cast nbuf1_4)
abbrev scM1_0 : Memref sig .tc .vmem S6144x256 .f32 := Memref.whole cc1_scratch0

theorem PhiA1_eq (c : Dev nD) :
    (Pipeline.ΦA spec1 c : sProp 𝕄)
      = iprop(iprop(iprop((∃ d, owns (c : Thread nD τ) scM1_0 fullShare d))
            ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1_0, owns_whole]; try rfl

variable (c : Dev nD) (i : grid1.Coords) (arg2 : Memref sig .tc .vmem S6144x1 .i32) (harg2 : arg2.IsWhole) (arg3 : Memref sig .tc .vmem S1x6400 .i32) (harg3 : arg3.IsWhole) (arg4 : Memref sig .tc .vmem S6400x256 .bf16) (harg4 : arg4.IsWhole) (arg5 : Memref sig .tc .vmem S6400x256 .bf16) (harg5 : arg5.IsWhole) (arg6 : Memref sig .tc .vmem S6144x256 .f32) (harg6 : arg6.IsWhole) (arg7 : Memref sig .tc .vmem S6144x256 .f32) (harg7 : arg7.IsWhole)
  (x0 : Vec F S6144x1 .i32) (x1 : Vec F S1x6400 .i32) (x2 : Vec F S6400x256 .bf16) (x3 : Vec F S6400x256 .bf16)

/-- The one shape of the body's run in its three control cases: Q6 and Q7 are what it needs of the output block and of the running sum, P6 what the output block comes back as, LS the pieces written to the running sum. -/
abbrev Runs1 (Q6 Q7 P6 : sProp 𝕄) (LS : List (View.Piece (Elt F) S6144x256 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ Q6 ∗ Q7
        ∗ (iprop(owns (c : Thread nD τ) arg2 fullShare x0 ∗ owns (c : Thread nD τ) arg3 fullShare x1 ∗ owns (c : Thread nD τ) arg4 fullShare x2 ∗ owns (c : Thread nD τ) arg5 fullShare x3 ∗ P6 ∗ (∃ f, arg7.view.loc (c : Thread nD τ) ↦[arg7.view.set]{fullShare} arg7.view.writes (Elt F) f LS)) -∗ K ⟨⟩))
      ⊢ wp frame (wpE (defs₀ (F := F)) Variants.none c none) E (cc1__gather_reduce_kernel i arg2 harg2 arg3 harg3 arg4 harg4 arg5 harg5 arg6 harg6 arg7 harg7) K

end Cert.Kernel.Hand

end
-- ==== Proof.K.R1RunA.lean ====
import proofs.«425388_j31877247271269_3_alg».proof.Proof.K.R1Runs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid1.Coords) (arg2 : Memref sig .tc .vmem S6144x1 .i32) (harg2 : arg2.IsWhole) (arg3 : Memref sig .tc .vmem S1x6400 .i32) (harg3 : arg3.IsWhole) (arg4 : Memref sig .tc .vmem S6400x256 .bf16) (harg4 : arg4.IsWhole) (arg5 : Memref sig .tc .vmem S6400x256 .bf16) (harg5 : arg5.IsWhole) (arg6 : Memref sig .tc .vmem S6144x256 .f32) (harg6 : arg6.IsWhole) (arg7 : Memref sig .tc .vmem S6144x256 .f32) (harg7 : arg7.IsWhole)

set_option maxHeartbeats 1000000 in
/-- At a first point the running sum is cleared before it is read: it is needed at no particular contents. -/
def kernelRun1_A (hc0 : cond1_0 i) (hc1 : ¬cond1_1 i) (x0 : Vec F S6144x1 .i32) (x1 : Vec F S1x6400 .i32) (x2 : Vec F S6400x256 .bf16) (x3 : Vec F S6400x256 .bf16) :
    { LS : List (View.Piece (Elt F) S6144x256 .f32) // ∀ xo, Runs1 c i arg2 harg2 arg3 harg3 arg4 harg4 arg5 harg5 arg6 harg6 arg7 harg7 x0 x1 x2 x3 (owns (c : Thread nD τ) arg6 fullShare xo) iprop(∃ d, owns (c : Thread nD τ) arg7 fullShare d) (owns (c : Thread nD τ) arg6 fullShare xo) LS } := by
  refine ⟨?_, fun xo E K => ?run⟩
  case run =>
    simp only [cc1__gather_reduce_kernel_eq_skeleton]; unfold cc1__gather_reduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.K.R1RunB.lean ====
import proofs.«425388_j31877247271269_3_alg».proof.Proof.K.R1RunA

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid1.Coords) (arg2 : Memref sig .tc .vmem S6144x1 .i32) (harg2 : arg2.IsWhole) (arg3 : Memref sig .tc .vmem S1x6400 .i32) (harg3 : arg3.IsWhole) (arg4 : Memref sig .tc .vmem S6400x256 .bf16) (harg4 : arg4.IsWhole) (arg5 : Memref sig .tc .vmem S6400x256 .bf16) (harg5 : arg5.IsWhole) (arg6 : Memref sig .tc .vmem S6144x256 .f32) (harg6 : arg6.IsWhole) (arg7 : Memref sig .tc .vmem S6144x256 .f32) (harg7 : arg7.IsWhole)

set_option maxHeartbeats 1000000 in
def kernelRun1_B (hc0 : ¬cond1_0 i) (hc1 : ¬cond1_1 i) (x0 : Vec F S6144x1 .i32) (x1 : Vec F S1x6400 .i32) (x2 : Vec F S6400x256 .bf16) (x3 : Vec F S6400x256 .bf16) (xs : Vec F S6144x256 .f32) :
    { LS : List (View.Piece (Elt F) S6144x256 .f32) // ∀ xo, Runs1 c i arg2 harg2 arg3 harg3 arg4 harg4 arg5 harg5 arg6 harg6 arg7 harg7 x0 x1 x2 x3 (owns (c : Thread nD τ) arg6 fullShare xo) (owns (c : Thread nD τ) arg7 fullShare xs) (owns (c : Thread nD τ) arg6 fullShare xo) LS } := by
  refine ⟨?_, fun xo E K => ?run⟩
  case run =>
    simp only [cc1__gather_reduce_kernel_eq_skeleton]; unfold cc1__gather_reduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.K.R1RunC.lean ====
import proofs.«425388_j31877247271269_3_alg».proof.Proof.K.R1RunB

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid1.Coords) (arg2 : Memref sig .tc .vmem S6144x1 .i32) (harg2 : arg2.IsWhole) (arg3 : Memref sig .tc .vmem S1x6400 .i32) (harg3 : arg3.IsWhole) (arg4 : Memref sig .tc .vmem S6400x256 .bf16) (harg4 : arg4.IsWhole) (arg5 : Memref sig .tc .vmem S6400x256 .bf16) (harg5 : arg5.IsWhole) (arg6 : Memref sig .tc .vmem S6144x256 .f32) (harg6 : arg6.IsWhole) (arg7 : Memref sig .tc .vmem S6144x256 .f32) (harg7 : arg7.IsWhole)

set_option maxHeartbeats 1000000 in
/-- At a last point the final sum is also stored over the whole output block (the pieces LO), which is needed at no particular contents. -/
def kernelRun1_C (hc0 : ¬cond1_0 i) (hc1 : cond1_1 i) (x0 : Vec F S6144x1 .i32) (x1 : Vec F S1x6400 .i32) (x2 : Vec F S6400x256 .bf16) (x3 : Vec F S6400x256 .bf16) (xs : Vec F S6144x256 .f32) :
    Σ' LO : List (View.Piece (Elt F) S6144x256 .f32), { LS : List (View.Piece (Elt F) S6144x256 .f32) //
      Runs1 c i arg2 harg2 arg3 harg3 arg4 harg4 arg5 harg5 arg6 harg6 arg7 harg7 x0 x1 x2 x3 iprop(∃ d, owns (c : Thread nD τ) arg6 fullShare d) (owns (c : Thread nD τ) arg7 fullShare xs) iprop(∃ f, arg6.view.loc (c : Thread nD τ) ↦[arg6.view.set]{fullShare} arg6.view.writes (Elt F) f LO) LS } := by
  refine ⟨?_, ?_, fun E K => ?run⟩
  case run =>
    simp only [cc1__gather_reduce_kernel_eq_skeleton]; unfold cc1__gather_reduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.K.R1.lean ====
import proofs.«425388_j31877247271269_3_alg».proof.Proof.K.R1RunC

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg2 : Memref sig .tc .vmem S6144x1 .i32) (harg2 : arg2.IsWhole) (arg3 : Memref sig .tc .vmem S1x6400 .i32) (harg3 : arg3.IsWhole) (arg4 : Memref sig .tc .vmem S6400x256 .bf16) (harg4 : arg4.IsWhole) (arg5 : Memref sig .tc .vmem S6400x256 .bf16) (harg5 : arg5.IsWhole) (arg6 : Memref sig .tc .vmem S6144x256 .f32) (harg6 : arg6.IsWhole) (arg7 : Memref sig .tc .vmem S6144x256 .f32) (harg7 : arg7.IsWhole)

section
variable (hc0 : cond1_0 i) (hc1 : ¬cond1_1 i) (x0 : Vec F S6144x1 .i32) (x1 : Vec F S1x6400 .i32) (x2 : Vec F S6400x256 .bf16) (x3 : Vec F S6400x256 .bf16)
def sout1_A_0 : Vec F S6144x256 .f32 := View.canon (kernelRun1_A c i arg2 harg2 arg3 harg3 arg4 harg4 arg5 harg5 arg6 harg6 arg7 harg7 hc0 hc1 x0 x1 x2 x3).1
end
section
variable (hc0 : ¬cond1_0 i) (hc1 : ¬cond1_1 i) (x0 : Vec F S6144x1 .i32) (x1 : Vec F S1x6400 .i32) (x2 : Vec F S6400x256 .bf16) (x3 : Vec F S6400x256 .bf16) (xs : Vec F S6144x256 .f32)
def sout1_B_0 : Vec F S6144x256 .f32 := View.canon (kernelRun1_B c i arg2 harg2 arg3 harg3 arg4 harg4 arg5 harg5 arg6 harg6 arg7 harg7 hc0 hc1 x0 x1 x2 x3 xs).1
end
section
variable (hc0 : ¬cond1_0 i) (hc1 : cond1_1 i) (x0 : Vec F S6144x1 .i32) (x1 : Vec F S1x6400 .i32) (x2 : Vec F S6400x256 .bf16) (x3 : Vec F S6400x256 .bf16) (xs : Vec F S6144x256 .f32)
def out1_C_4 : Vec F S6144x256 .f32 := View.canon (kernelRun1_C c i arg2 harg2 arg3 harg3 arg4 harg4 arg5 harg5 arg6 harg6 arg7 harg7 hc0 hc1 x0 x1 x2 x3 xs).1
def sout1_C_0 : Vec F S6144x256 .f32 := View.canon (kernelRun1_C c i arg2 harg2 arg3 harg3 arg4 harg4 arg5 harg5 arg6 harg6 arg7 harg7 hc0 hc1 x0 x1 x2 x3 xs).2.1
end
end

def out1_idle_4 : Vec F S6144x256 .f32 := View.canon []

theorem c1_0_of {t : Fin cfg1.N} (h : t.val % 50 = 0) : cond1_0 (grid1.coords t) := (hcond1_0 t).mpr h
theorem nc1_0_of {t : Fin cfg1.N} (h : ¬t.val % 50 = 0) : ¬cond1_0 (grid1.coords t) := fun h' => h ((hcond1_0 t).mp h')
theorem c1_1_of {t : Fin cfg1.N} (h : t.val % 50 = 49) : cond1_1 (grid1.coords t) := (hcond1_1 t).mpr h
theorem nc1_1_of {t : Fin cfg1.N} (h : ¬t.val % 50 = 49) : ¬cond1_1 (grid1.coords t) := fun h' => h ((hcond1_1 t).mp h')

/-- What the point at position t leaves in the output block and in the running sum, over the running sum xs it finds. -/
def step1 (c : Dev nD) (t : Fin cfg1.N) (xs : Vec F S6144x256 .f32) : Vec F S6144x256 .f32 × Vec F S6144x256 .f32 :=
  if h0 : t.val % 50 = 0 then
    (out1_idle_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) (c1_0_of h0) (nc1_1_of (by omega)) (iblk1 V c 0 t) (iblk1 V c 1 t) (iblk1 V c 2 t) (iblk1 V c 3 t))
  else if h1 : t.val % 50 = 49 then
    (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (nc1_0_of h0) (c1_1_of h1) (iblk1 V c 0 t) (iblk1 V c 1 t) (iblk1 V c 2 t) (iblk1 V c 3 t) xs,
     sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (nc1_0_of h0) (c1_1_of h1) (iblk1 V c 0 t) (iblk1 V c 1 t) (iblk1 V c 2 t) (iblk1 V c 3 t) xs)
  else (out1_idle_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (nc1_0_of h0) (nc1_1_of h1) (iblk1 V c 0 t) (iblk1 V c 1 t) (iblk1 V c 2 t) (iblk1 V c 3 t) xs)

def outsAt1 (c : Dev nD) : (n : ℕ) → n < cfg1.N → Vec F S6144x256 .f32 × Vec F S6144x256 .f32
  | 0, hn => step1 V c ⟨0, hn⟩ out1_idle_4
  | n + 1, hn => step1 V c ⟨n + 1, hn⟩ (outsAt1 c n (Nat.lt_of_succ_lt hn)).2

theorem pred_lt1 (t : Fin cfg1.N) : t.val - 1 < cfg1.N := Nat.lt_of_le_of_lt (Nat.sub_le _ _) t.isLt

theorem outsAt1_A (c : Dev nD) (t : Fin cfg1.N) (h0 : t.val % 50 = 0) (h1 : ¬t.val % 50 = 49) :
    outsAt1 V c t.val t.isLt
      = (out1_idle_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) (c1_0_of h0) (nc1_1_of h1) (iblk1 V c 0 t) (iblk1 V c 1 t) (iblk1 V c 2 t) (iblk1 V c 3 t)) := by
  obtain ⟨n, hn⟩ := t
  cases n with
  | zero => rfl
  | succ n => exact dif_pos h0

theorem outsAt1_B (c : Dev nD) (t : Fin cfg1.N) (h0 : ¬t.val % 50 = 0) (h1 : ¬t.val % 50 = 49) :
    outsAt1 V c t.val t.isLt
      = (out1_idle_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (nc1_0_of h0) (nc1_1_of h1) (iblk1 V c 0 t) (iblk1 V c 1 t) (iblk1 V c 2 t) (iblk1 V c 3 t) (outsAt1 V c (t.val - 1) (pred_lt1 t)).2) := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 50 = 0) (h1 : t.val % 50 = 49) :
    outsAt1 V c t.val t.isLt
      = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (nc1_0_of h0) (c1_1_of h1) (iblk1 V c 0 t) (iblk1 V c 1 t) (iblk1 V c 2 t) (iblk1 V c 3 t) (outsAt1 V c (t.val - 1) (pred_lt1 t)).2,
         sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (nc1_0_of h0) (c1_1_of h1) (iblk1 V c 0 t) (iblk1 V c 1 t) (iblk1 V c 2 t) (iblk1 V c 3 t) (outsAt1 V c (t.val - 1) (pred_lt1 t)).2) := by
  obtain ⟨n, hn⟩ := t
  cases n with
  | zero => exact absurd (Nat.zero_mod _) h0
  | succ n => exact (dif_neg h0).trans (dif_pos h1)

abbrev rest1 (c : Dev nD) : sProp 𝕄 :=
  Pipeline.scopedRestBut (Ix := Unit) (Name := ℕ) (U := UR sig nD τ) (Lvl := ℕ) (Val := Elt F) spec1 c [cc1_scratch0]

def PhiS1 (c : Dev nD) : (n : ℕ) → n ≤ cfg1.N → sProp 𝕄
  | 0, _ => Pipeline.ΦA spec1 c
  | n + 1, hn => iprop(iprop(owns (c : Thread nD τ) scM1_0 fullShare (outsAt1 V c n hn).2 ∗ rest1 c) ∗ (∃ r, prngReg c r))

theorem PhiS1_succ (c : Dev nD) (n : ℕ) (hn : n < cfg1.N) :
    PhiS1 V c (n + 1) hn = iprop(iprop(owns (c : Thread nD τ) scM1_0 fullShare (outsAt1 V c n hn).2 ∗ rest1 c) ∗ (∃ r, prngReg c r)) := rfl

/-- Past the region's entry the invariant names the running sum; a first point needs it at no particular contents. -/
theorem PhiS1_open (c : Dev nD) (n : ℕ) (h : n ≤ cfg1.N) :
    PhiS1 V c n h ⊢ iprop(∃ xs, ⌜∀ hz : n ≠ 0, xs = (outsAt1 V c (n - 1) (by omega)).2⌝
      ∗ iprop(iprop(owns (c : Thread nD τ) scM1_0 fullShare xs ∗ rest1 c) ∗ (∃ r, prngReg c r))) := by
  cases n with
  | zero =>
    rw [show PhiS1 V c 0 h = Pipeline.ΦA spec1 c from rfl, PhiA1_eq]
    iintro ⟨⟨⟨%d, HS⟩, HR⟩, Hg⟩
    iexists d; isplitr; · ipureintro; exact fun hz => absurd rfl hz
    isplitl [HS HR]
    · isplitl [HS]; · iexact HS
      iexact HR
    iexact Hg
  | succ n =>
    rw [PhiS1_succ]; iintro H; iexists _; isplitr; swap; · iexact H
    ipureintro; exact fun _ => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem after1_4 (c : Dev nD) (t : Fin cfg1.N) : (dat1 V c).after 4 t = (outsAt1 V c t.val t.isLt).1 := by dsimp only [dat1]

theorem before1 (c : Dev nD) (t : Fin cfg1.N) (w : Fin cfg1.W) (hw : w.val < 4) (d) : (dat1 V c).before w t d = (dat1 V c).after w t := by
  fin_cases w <;> first
    | exact absurd hw (by decide)
    | exact (dat1 V c).before_in_eq_fetched _ rfl (fun _ => rfl) (fun _ _ _ => rfl) (fun _ => rfl) t d

/-- No point is idle for an input. -/
theorem leaves1 (c : Dev nD) (t : Fin cfg1.N) (w : Fin cfg1.W) (hw : w.val < 4) :
    (dat1 V c).leavesExact w t = owns (c : Thread nD τ) ((cfg1.win w).stage (cfg1.slots t w)) fullShare ((dat1 V c).after w t) := by
  fin_cases w <;> first | exact absurd hw (by decide) | rfl

theorem Phi1_castSucc (c : Dev nD) (t : Fin cfg1.N) :
    (dat1 V c).Φ t.castSucc = PhiS1 V c t.val (Nat.le_of_lt t.isLt) := by
  dsimp only [dat1]; simp only [Fin.coe_castSucc]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The position's remainder mod 50 selects the run; all that differs afterwards is what the output block is left at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp (disch := decide) only [before1 V]
  rw [show (dat1 V c).owesAt () t.succ = (dat1 V c).owesAt () t.castSucc from rfl,
    show (dat1 V c).Φ t.succ = PhiS1 V c (t.val + 1) t.isLt from rfl, PhiS1_succ, Phi1_castSucc,
    leaves1 V c t 0 (by decide), leaves1 V c t 1 (by decide), leaves1 V c t 2 (by decide), leaves1 V c t 3 (by decide)]
  iintro ⟨HΦ, Ho, ⟨%d0, H0⟩, ⟨%d1, H1⟩, ⟨%d2, H2⟩, ⟨%d3, H3⟩, ⟨%d4, H4⟩⟩
  ihave HΦ' := PhiS1_open V c t.val (Nat.le_of_lt t.isLt) $$ HΦ
  icases HΦ' with ⟨%xs, %hxs, ⟨HS, HR⟩, Hg⟩
  obtain ⟨Q6, Q7, P6, LS, h6, h7, hrun, hsum, hout⟩ : ∃ (Q6 Q7 P6 : sProp 𝕄) (LS : List (View.Piece (Elt F) S6144x256 .f32)),
      (owns (c : Thread nD τ) (ms1_4 t) fullShare ((dat1 V c).before 4 t d4) ⊢ Q6) ∧ (owns (c : Thread nD τ) scM1_0 fullShare xs ⊢ Q7)
      ∧ Runs1 c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) Q6 Q7 P6 LS
      ∧ (∀ f, scM1_0.view.read (Elt F) (scM1_0.view.writes (Elt F) f LS) = (outsAt1 V c t.val t.isLt).2)
      ∧ (P6 ⊢ (dat1 V c).leavesExact 4 t) := by
    by_cases h0 : t.val % 50 = 0
    · have h1 : ¬t.val % 50 = 49 := by omega
      rw [outsAt1_A V c t h0 h1, Dat.leavesExact_idle (dat1 V c) 4 t (idleAt1_4 t (nc1_1_of h1)) (noFlush1_4 t (nc1_1_of h1))]
      unfold sout1_A_0; dsimp only
      exact ⟨_, _, _, _, Idealize.SL.BI.Entails.refl _, by iintro H; iexists _; iexact H, (kernelRun1_A _ _ _ _ _ _ _ _ _ _ _ _ _ _ (c1_0_of h0) (nc1_1_of h1) _ _ _ _).2 _, fun f => View.read_writes_eq_canon _ _ _ (View.cover_of_tiledL _ S6144x256.size (by sl_kernel_rfl)), by iintro H; iexists _; iexact H⟩
    · obtain rfl := hxs fun e => h0 (by rw [e])
      by_cases h1 : t.val % 50 = 49
      · rw [outsAt1_C V c t h0 h1, show (dat1 V c).leavesExact 4 t = owns (c : Thread nD τ) (ms1_4 t) fullShare ((dat1 V c).after 4 t) from by
          unfold Dat.leavesExact; rw [liveAt1_4 t (c1_1_of h1)], after1_4, outsAt1_C V c t h0 h1]
        unfold out1_C_4 sout1_C_0; dsimp only
        refine ⟨_, _, _, _, by iintro H; iexists _; iexact H, Idealize.SL.BI.Entails.refl _, (kernelRun1_C _ _ _ _ _ _ _ _ _ _ _ _ _ _ (nc1_0_of h0) (c1_1_of h1) _ _ _ _ _).2.2, fun f => View.read_writes_eq_canon _ _ _ (View.cover_of_tiledL _ S6144x256.size (by sl_kernel_rfl)), ?_⟩
        iintro ⟨%f, H⟩; unfold owns; iexists _; isplitr; swap; · iexact H
        ipureintro; exact View.read_writes_eq_canon _ _ _ (View.cover_of_tiledL _ S6144x256.size (by sl_kernel_rfl))
      · rw [outsAt1_B V c t h0 h1, Dat.leavesExact_idle (dat1 V c) 4 t (idleAt1_4 t (nc1_1_of h1)) (noFlush1_4 t (nc1_1_of h1))]
        unfold sout1_B_0; dsimp only
        exact ⟨_, _, _, _, Idealize.SL.BI.Entails.refl _, Idealize.SL.BI.Entails.refl _, (kernelRun1_B _ _ _ _ _ _ _ _ _ _ _ _ _ _ (nc1_0_of h0) (nc1_1_of h1) _ _ _ _ _).2 _, fun f => View.read_writes_eq_canon _ _ _ (View.cover_of_tiledL _ S6144x256.size (by sl_kernel_rfl)), by iintro H; iexists _; iexact H⟩
  iapply (hrun Set.univ _)
  isplitl [H0]; · iexact H0
  isplitl [H1]; · iexact H1
  isplitl [H2]; · iexact H2
  isplitl [H3]; · iexact H3
  isplitl [H4]; · iapply h6; iexact H4
  isplitl [HS]; · iapply h7; iexact HS
  iintro ⟨H0, H1, H2, H3, H4, ⟨%es, HS⟩⟩
  isplitl [HS HR Hg]
  · isplitl [HS HR]
    · isplitl [HS]
      · unfold owns; iexists _; isplitr; swap; · iexact HS
        ipureintro; exact hsum _
      iexact HR
    iexact Hg
  isplitl [Ho]; · iexact Ho
  isplitl [H0]; · iexact H0
  isplitl [H1]; · iexact H1
  isplitl [H2]; · iexact H2
  isplitl [H3]; · iexact H3
  iapply hout; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl]
  exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  refine BIBase.Entails.trans (PhiS1_open V c _ _) ?_
  iintro ⟨%xs, -, ⟨HS, HR⟩, Hg⟩
  isplitl [HS HR]
  · isplitl [HS]; · iexists _; iexact HS
    iexact HR
  iexact Hg

end Cert.Kernel.Hand

end
-- ==== Proof.K.R2Defs.lean ====
import proofs.«425388_j31877247271269_3_alg».proof.Proof.Gen.Kernel.Launch
import proofs.«425388_j31877247271269_3_alg».proof.Proof.Gen.Kernel.Skeleton
import proofs.«425388_j31877247271269_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open Idealize.ShloMosaic.Pipeline (Dat)
open Cert.Kernel Cert.Kernel.Gen

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2048x256 := Rect.unit (s := S2048x256) ![0, 0] S2048x256.size inb_S2048x256_S2048x256_0_0
abbrev r2_1 : Rect S256x128 := Rect.unit (s := S256x128) ![0, 0] S256x128.size inb_S256x128_S256x128_0_0
abbrev r2_2 : Rect S1x128 := Rect.unit (s := S1x128) ![0, 0] S1x128.size inb_S1x128_S1x128_0_0
abbrev r2_3 : Rect S128x1 := Rect.unit (s := S128x1) ![0, 0] S128x1.size inb_S128x1_S128x1_0_0
abbrev r2_4 : Rect S1x1 := Rect.unit (s := S1x1) ![0, 0] S1x1.size inb_S1x1_S1x1_0_0
abbrev r2_5 : Rect S2048x1 := Rect.unit (s := S2048x1) ![0, 0] S2048x1.size inb_S2048x1_S2048x1_0_0

def out2_9 (x0 x1 x2 : Vec F S2048x256 .f32) (x3 : Vec F S256x128 .f32) (x4 : Vec F S1x128 .f32) (x5 : Vec F S256x128 .f32)
    (x6 : Vec F S1x128 .f32) (x7 : Vec F S128x1 .f32) (x8 : Vec F S1x1 .f32) : Vec F S2048x1 .f32 :=
  View.canon [⟨r2_5, k2_pay1 (k2_pay5 (View.ld x0 r2_0) (View.ld x1 r2_0) (View.ld x3 r2_1) (View.ld x4 r2_2) (View.ld x5 r2_1) (View.ld x6 r2_2) (View.ld x7 r2_3)) (k2_pay6 (View.ld x8 r2_4))⟩]

def out2_10 (x0 x1 x2 : Vec F S2048x256 .f32) (x3 : Vec F S256x128 .f32) (x4 : Vec F S1x128 .f32) (x5 : Vec F S256x128 .f32)
    (x6 : Vec F S1x128 .f32) (x7 : Vec F S128x1 .f32) (x8 : Vec F S1x1 .f32) : Vec F S2048x1 .f32 :=
  View.canon [⟨r2_5, k2_pay2 (k2_pay3 (View.ld x0 r2_0) (View.ld x3 r2_1) (View.ld x4 r2_2)) (k2_pay4 (View.ld x2 r2_0) (View.ld x5 r2_1) (View.ld x6 r2_2)) (View.ld x7 r2_3) (View.ld x8 r2_4)⟩]

-- One store of the whole buffer covers it.
theorem cover2 (p0 : Vec F S2048x1 .f32) (y : S2048x1.Idx) :
    ∃ pc ∈ ([⟨r2_5, p0⟩] : List (View.Piece (Elt F) S2048x1 .f32)), y ∈ pc.1.set :=
  View.cover_of_tiled [⟨r2_5, p0⟩] S2048x1.size (by rfl) y

-- Inputs keep their block; windows 0, 1, 2 read one array, so they hold complementary parts of its share.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q w := match w with
    | ⟨0, _⟩ => fullShare.left
    | ⟨1, _⟩ => fullShare.right.left
    | ⟨2, _⟩ => fullShare.right.right
    | _ => fullShare
  owed _ := 0

theorem A_eq2 (c : Dev nD) (w : Fin cfg2.W) : (dat2 V c).A w = V c (Pipeline.arrRef spec2 w) := by
  dsimp only [dat2]

theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

end Cert.Kernel.Hand

end
-- ==== Proof.K.HostVals.lean ====
import proofs.«425388_j31877247271269_3_alg».proof.Proof.Gen.Kernel.Launch
import Idealize.ShloMosaic.Lib.StableHlo.Run

noncomputable section

namespace Cert.Kernel.Hand

open Idealize.ShloMosaic Idealize.ShloMosaic.TcCoe Idealize.ShloMosaic.StableHlo
open Cert.Kernel Cert.Kernel.Gen

variable {F : FTy → Type} [FloatOps F] (X : Valuation τ sig (Elt F))

def srcWords (src : IVec S320000 32) : IVec S320000x1 32 :=
  broadcastInDim S320000x1 ![0] bcast_S320000_S320000x1_0
    (select (cmpi CmpIPredicate.slt src (broadcastInDim S320000 ![] bcast_S_S320000 (constantI S_ 32 0#32)))
      (addi src (broadcastInDim S320000 ![] bcast_S_S320000 (constantI S_ 32 100000#32))) src)

def timeDiff (src : IVec S320000 32) (bt : FVec F S320000 .f32) (nodeTs : FVec F S100000 .f32) : FVec F S320000 .f32 :=
  subf bt (Host.gather gather_S100000_S320000x1_S320000_n_0_n_n_0_1_1 nodeTs (srcWords src))

theorem host0_v8 : StableHlo.after (hostOps0 (F := F)) X (Proc.devRef .tc main_v8)
    = shapeCast S320000x1 (timeDiff (X (Proc.devRef .tc main_arg0)) (X (Proc.devRef .tc main_arg3)) (X (Proc.devRef .tc main_arg4))) shapeCasts_S320000_S320000x1 := by
  dsimp only [hostOps0]; after_results; rfl
theorem host0_v9 : StableHlo.after (hostOps0 (F := F)) X (Proc.devRef .tc main_v9)
    = shapeCast S1x128 (X (Proc.devRef .tc main_arg8)) shapeCasts_S128_S1x128 := by
  dsimp only [hostOps0]; after_results; rfl
theorem host0_v10 : StableHlo.after (hostOps0 (F := F)) X (Proc.devRef .tc main_v10)
    = shapeCast S1x128 (X (Proc.devRef .tc main_arg9)) shapeCasts_S128_S1x128 := by
  dsimp only [hostOps0]; after_results; rfl

theorem host1_v13 : StableHlo.after (hostOps1 (F := F)) X (Proc.devRef .tc main_v13)
    = shapeCast S12288x1 (concatenate S12288 0 [⟨S4096, X (Proc.devRef .tc main_arg5)⟩, ⟨S4096, X (Proc.devRef .tc main_arg6)⟩, ⟨S4096, X (Proc.devRef .tc main_arg7)⟩] concatenates_S4096_S4096_S4096_S12288_d0) shapeCasts_S12288_S12288x1 := by
  dsimp only [hostOps1]; after_results; rfl
theorem host1_v14 : StableHlo.after (hostOps1 (F := F)) X (Proc.devRef .tc main_v14)
    = shapeCast S1x320000 (X (Proc.devRef .tc main_arg1)) shapeCasts_S320000_S1x320000 := by
  dsimp only [hostOps1]; after_results; rfl

theorem host2_v16 : StableHlo.after (hostOps2 (F := F)) X (Proc.devRef .tc main_v16)
    = shapeCast S1x128 (X (Proc.devRef .tc main_arg11)) shapeCasts_S128_S1x128 := by
  dsimp only [hostOps2]; after_results; rfl
theorem host2_v17 : StableHlo.after (hostOps2 (F := F)) X (Proc.devRef .tc main_v17)
    = shapeCast S1x128 (X (Proc.devRef .tc main_arg13)) shapeCasts_S128_S1x128 := by
  dsimp only [hostOps2]; after_results; rfl
theorem host2_v18 : StableHlo.after (hostOps2 (F := F)) X (Proc.devRef .tc main_v18)
    = shapeCast S1x1 (X (Proc.devRef .tc main_arg15)) shapeCasts_S1_S1x1 := by
  dsimp only [hostOps2]; after_results; rfl

abbrev written0 : List (Ref sig .tc) := [main_c, main_v0, main_v1, main_c_0, main_v2, main_v3, main_v4, main_v5, main_v6, main_v7, main_v8, main_v9, main_v10]
abbrev written1 : List (Ref sig .tc) := [main_v12, main_v13, main_v14]
abbrev written2 : List (Ref sig .tc) := [main_v16, main_v17, main_v18]

/-- A buffer that differs from every result buffer of a stretch is written by none of its operations. -/
theorem hosts_keep (b : Ref sig .tc) :
    (b ∉ written0 → StableHlo.after (hostOps0 (F := F)) X (Proc.devRef .tc b) = X (Proc.devRef .tc b))
    ∧ (b ∉ written1 → StableHlo.after (hostOps1 (F := F)) X (Proc.devRef .tc b) = X (Proc.devRef .tc b))
    ∧ (b ∉ written2 → StableHlo.after (hostOps2 (F := F)) X (Proc.devRef .tc b) = X (Proc.devRef .tc b)) := by
  refine ⟨fun h => ?_, fun h => ?_, fun h => ?_⟩ <;>
  · refine StableHlo.after_of_forall_not_mem _ _ (List.forall_iff_forall_mem.mp ?_)
    simp only [hostOps0, hostOps1, hostOps2, List.Forall, StableHlo.nullary_writes, StableHlo.unary_writes, StableHlo.binary_writes,
      StableHlo.ternary_writes, StableHlo.nary_writes, StableHlo.reshape_writes, Finset.mem_singleton]
    simp only [List.mem_cons, List.mem_nil_iff, or_false, not_or] at h
    repeat' apply And.intro
    all_goals exact StableHlo.devRef_ne_of_ne (by tauto)
theorem host0_keep (b : Ref sig .tc) (h : b ∉ written0) :
    StableHlo.after (hostOps0 (F := F)) X (Proc.devRef .tc b) = X (Proc.devRef .tc b) := (hosts_keep X b).1 h
theorem host1_keep (b : Ref sig .tc) (h : b ∉ written1) :
    StableHlo.after (hostOps1 (F := F)) X (Proc.devRef .tc b) = X (Proc.devRef .tc b) := (hosts_keep X b).2.1 h
theorem host2_keep (b : Ref sig .tc) (h : b ∉ written2) :
    StableHlo.after (hostOps2 (F := F)) X (Proc.devRef .tc b) = X (Proc.devRef .tc b) := (hosts_keep X b).2.2 h

end Cert.Kernel.Hand

end
-- ==== Proof.K.Fold.lean ====
import proofs.«425388_j31877247271269_3_alg».proof.Proof.K.R0
import proofs.«425388_j31877247271269_3_alg».proof.Proof.K.R1
import proofs.«425388_j31877247271269_3_alg».proof.Proof.K.R2Defs
import proofs.«425388_j31877247271269_3_alg».proof.Proof.K.HostVals

noncomputable section

namespace Cert.Kernel.Hand

open Idealize.ShloMosaic Idealize.ShloMosaic.TcCoe Idealize.SL Idealize.SL.Sem Cert.Kernel.Gen

variable {F : FTy → Type} [FloatOps F]

variable (m : (ℓ : Loc nD τ sig) → Buf (Elt F) ℓ) (ρ : Dev nD → PrngReg)

theorem ne_of_not_image {n : ℕ} {f : Fin n → Ref sig .tc} {b : Ref sig .tc} (hb : b ∉ Finset.univ.image f) (w : Fin n) : f w ≠ b :=
  fun e => hb (Finset.mem_image.mpr ⟨w, Finset.mem_univ _, e⟩)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After a region its arrays hold the proof data's final contents and every other buffer is as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the last region only its two result arrays differ from the contents at entry. -/
def W6 (c : Dev nD) : Valuation τ sig (Elt F) :=
  Function.update (Function.update (W5 m ρ c) main_v19_0 ((dat2 (V5 m ρ) c).arrAt 9 cfg2.N)) main_v19_1 ((dat2 (V5 m ρ) c).arrAt 10 cfg2.N)
abbrev V6 : (c : Dev nD) → (b : Ref sig .tc) → Buf (Elt F) ((c : Thread nD τ).loc b) := fun c b => W6 m ρ c b
theorem W6_v19_0 (c : Dev nD) : W6 m ρ c main_v19_0 = (dat2 (V5 m ρ) c).arrAt 9 cfg2.N := by
  unfold W6
  rw [Function.update_of_ne (StableHlo.devRef_ne_of_ne (by decide) : (Proc.devRef .tc main_v19_0 : DevRef τ sig) ≠ Proc.devRef .tc main_v19_1), Function.update_self]
theorem W6_v19_1 (c : Dev nD) : W6 m ρ c main_v19_1 = (dat2 (V5 m ρ) c).arrAt 10 cfg2.N := by
  unfold W6; rw [Function.update_self]
theorem W6_of_ne (c : Dev nD) (b : Ref sig .tc) (h0 : b ≠ main_v19_0) (h1 : b ≠ main_v19_1) :
    W6 m ρ c (Proc.devRef .tc b) = W5 m ρ c (Proc.devRef .tc b) := by
  unfold W6
  rw [Function.update_of_ne (StableHlo.devRef_ne_of_ne h1 : (Proc.devRef .tc b : DevRef τ sig) ≠ Proc.devRef .tc main_v19_1),
    Function.update_of_ne (StableHlo.devRef_ne_of_ne h0 : (Proc.devRef .tc b : DevRef τ sig) ≠ Proc.devRef .tc main_v19_0)]
theorem hF2 (c : Dev nD) (w : Fin cfg2.W) : (dat2 (V5 m ρ) c).arrAt w cfg2.N = V6 m ρ c (Pipeline.arrRef spec2 w) := by
  rcases (by decide : ∀ w : Fin cfg2.W, w = 9 ∨ w = 10 ∨ (cfg2.win w).isOut = false ∧ Pipeline.arrRef spec2 w ≠ main_v19_0 ∧ Pipeline.arrRef spec2 w ≠ main_v19_1) w
    with rfl | rfl | ⟨hw, h0, h1⟩
  · exact (W6_v19_0 m ρ c).symm
  · exact (W6_v19_1 m ρ c).symm
  · rw [(dat2 (V5 m ρ) c).arrAt_in w hw _, A_eq2]; exact (W6_of_ne m ρ c _ h0 h1).symm
theorem hrest2 (c : Dev nD) : ∀ b, b ∉ Finset.univ.image (Pipeline.arrRef spec2) → V6 m ρ c b = V5 m ρ c b :=
  fun b hb => W6_of_ne m ρ c b (ne_of_not_image hb 9).symm (ne_of_not_image hb 10).symm

/-- A buffer that no host operation and no region has written yet holds its launch contents: a region's input array stays. -/
theorem W2_keep (c : Dev nD) (b : Ref sig .tc) (h2 : (∀ w, Pipeline.arrRef spec0 w ≠ b) ∨ b = main_arg2) (h1 : b ∉ written0) :
    W2 m ρ c (Proc.devRef .tc b) = m ((c : Thread nD τ).loc b) := by
  refine Eq.trans ?_ (host0_keep (W0 m ρ c) b h1)
  rcases h2 with h2 | rfl
  · exact W2_of_ne m ρ c b h2
  · exact (W2_arr m ρ c 0).trans (((dat0 (V1 m ρ) c).arrAt_in 0 rfl _).trans (A_eq0 (V1 m ρ) c 0))
theorem W4_keep (c : Dev nD) (b : Ref sig .tc) (h4 : ∀ w, Pipeline.arrRef spec1 w ≠ b) (h3 : b ∉ written1)
    (h2 : (∀ w, Pipeline.arrRef spec0 w ≠ b) ∨ b = main_arg2) (h1 : b ∉ written0) :
    W4 m ρ c (Proc.devRef .tc b) = m ((c : Thread nD τ).loc b) :=
  (W4_of_ne m ρ c b h4).trans ((host1_keep (W2 m ρ c) b h3).trans (W2_keep m ρ c b h2 h1))
theorem W5_keep (c : Dev nD) (b : Ref sig .tc) (h5 : b ∉ written2) (h4 : ∀ w, Pipeline.arrRef spec1 w ≠ b) (h3 : b ∉ written1)
    (h2 : (∀ w, Pipeline.arrRef spec0 w ≠ b) ∨ b = main_arg2) (h1 : b ∉ written0) :
    W5 m ρ c (Proc.devRef .tc b) = m ((c : Thread nD τ).loc b) :=
  (host2_keep (W4 m ρ c) b h5).trans (W4_keep m ρ c b h4 h3 h2 h1)

end Cert.Kernel.Hand

end
-- ==== Proof.K.R2.lean ====
import proofs.«425388_j31877247271269_3_alg».proof.Proof.K.R2Defs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_kernel2 (c : Dev nD) (E : Set ℕ) (i : grid2.Coords) {arg1 arg2 arg3 : Memref sig .tc .vmem S2048x256 .f32} {arg4 arg6 : Memref sig .tc .vmem S256x128 .f32}
    {arg5 arg7 : Memref sig .tc .vmem S1x128 .f32} {arg8 : Memref sig .tc .vmem S128x1 .f32} {arg9 : Memref sig .tc .vmem S1x1 .f32} {arg10 arg11 : Memref sig .tc .vmem S2048x1 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole)
    (x0 x1 x2 : Vec F S2048x256 .f32) (x3 : Vec F S256x128 .f32) (x4 : Vec F S1x128 .f32) (x5 : Vec F S256x128 .f32) (x6 : Vec F S1x128 .f32) (x7 : Vec F S128x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8) ∗ owns (c : Thread nD τ) arg11 fullShare (out2_10 x0 x1 x2 x3 x4 x5 x6 x7 x8)) -∗ K ⟨⟩))
      ⊢ wp frame (wpE (defs₀ (F := F)) Variants.none c none) E (cc2__predictor_kernel i arg1 harg1 arg2 harg2 arg3 harg3 arg4 harg4 arg5 harg5 arg6 harg6 arg7 harg7 arg8 harg8 arg9 harg9 arg10 harg10 arg11 harg11) K := by
  simp only [cc2__predictor_kernel_eq_skeleton]; unfold cc2__predictor_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover2 _)
  iexists _; isplitr
  swap; · iexact H10
  ipureintro
  try dsimp only
  exact View.read_writes_eq_canon _ _ _ (cover2 _)

-- The body leaves every input block as it was, so an input's buffer holds its block at every point.
theorem before2 (c : Dev nD) (t : Fin cfg2.N) (w : Fin cfg2.W) (hw : w.val < 9) (d) : (dat2 V c).before w t d = (dat2 V c).after w t := by
  fin_cases w <;> first
    | exact absurd hw (by decide)
    | exact (dat2 V c).before_in_eq_fetched _ rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  show _ ⊢ wp frame _ _ (bodyAt2 t) _
  simp (disch := decide) only [before2 V]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  iframe

-- A window's array is a whole buffer, held at the share the proof data gives the window.
theorem arr2 (c : Dev nD) (w : Fin cfg2.W) (G : Buf (Elt F) ((cfg2.win w).arr.view.loc (c : Thread nD τ))) :
    (((cfg2.win w).arr.view.loc (c : Thread nD τ)) ↦[(cfg2.win w).arr.view.set]{(dat2 V c).share w} G : sProp 𝕄)
      = (((c : Thread nD τ).loc (Pipeline.arrRef spec2 w)) ↦{(dat2 V c).q w} G) := by
  rw [(arr_whole2 w).set_eq_univ, show (dat2 V c).share w = (dat2 V c).q w by fin_cases w <;> rfl]

-- The nine distinct buffers behind the eleven windows' arrays.
theorem arrBufs2_eq (c : Dev nD) (W : (b : Ref sig .tc) → Buf (Elt F) ((c : Thread nD τ).loc b)) :
    (Pipeline.arrBufs spec2 c W : sProp 𝕄)
      = iprop((((c : Thread nD τ).loc main_v15) ↦{fullShare} W main_v15)
        ∗ (((c : Thread nD τ).loc main_arg10) ↦{fullShare} W main_arg10)
        ∗ (((c : Thread nD τ).loc main_v16) ↦{fullShare} W main_v16)
        ∗ (((c : Thread nD τ).loc main_arg12) ↦{fullShare} W main_arg12)
        ∗ (((c : Thread nD τ).loc main_v17) ↦{fullShare} W main_v17)
        ∗ (((c : Thread nD τ).loc main_arg14) ↦{fullShare} W main_arg14)
        ∗ (((c : Thread nD τ).loc main_v18) ↦{fullShare} W main_v18)
        ∗ (((c : Thread nD τ).loc main_v19_0) ↦{fullShare} W main_v19_0)
        ∗ (((c : Thread nD τ).loc main_v19_1) ↦{fullShare} W main_v19_1)) :=
  bigSep_eq_bigSepL_of_eq [main_v15, main_arg10, main_v16, main_arg12, main_v17, main_arg14, main_v18, main_v19_0, main_v19_1] (by decide) (by decide) _

-- Entry: the shared buffer's full share is cut in three, one part for each window that reads it.
theorem entry2 (c : Dev nD) :
    (unscopedBufs c (V c) : sProp 𝕄)
      ⊢ iprop((dat2 V c).arrays (fun w => (dat2 V c).arrAt w 0) ∗ Pipeline.unscopedRest spec2 c (V c)) := by
  rw [Pipeline.unscopedBufs_split₀ cfgs 2 winFacts₀2.arr_unscoped c (V c)]
  refine sep_mono ?_ .rfl
  show (Pipeline.arrBufs spec2 c (V c) : sProp 𝕄) ⊢ _
  rw [arrBufs2_eq]; unfold Dat.arrays; rw [bigSep_W2]
  iintro ⟨H15, H10, H16, H12, H17, H14, H18, H190, H191⟩
  ihave Hs := (pointsTo_share (PosShare.mem_left_op_right fullShare)).1 $$ H15
  icases Hs with ⟨Hl, Hr⟩
  ihave Hs := (pointsTo_share (PosShare.mem_left_op_right fullShare.right)).1 $$ Hr
  icases Hs with ⟨Hrl, Hrr⟩
  isplitl [Hl]; · rw [arr2 V c 0]; iexact Hl
  isplitl [Hrl]; · rw [arr2 V c 1]; iexact Hrl
  isplitl [Hrr]; · rw [arr2 V c 2]; iexact Hrr
  isplitl [H10]; · rw [arr2 V c 3]; iexact H10
  isplitl [H16]; · rw [arr2 V c 4]; iexact H16
  isplitl [H12]; · rw [arr2 V c 5]; iexact H12
  isplitl [H17]; · rw [arr2 V c 6]; iexact H17
  isplitl [H14]; · rw [arr2 V c 7]; iexact H14
  isplitl [H18]; · rw [arr2 V c 8]; iexact H18
  isplitl [H190]; · rw [arr2 V c 9]; iexact H190
  rw [arr2 V c 10]; iexact H191

theorem arrOut2 (V' : (c : Dev nD) → (b : Ref sig .tc) → Buf (Elt F) ((c : Thread nD τ).loc b)) (c : Dev nD) (w : Fin cfg2.W)
    (hF : (dat2 V c).arrAt w cfg2.N = V' c (Pipeline.arrRef spec2 w)) :
    (((cfg2.win w).arr.view.loc (c : Thread nD τ)) ↦[(cfg2.win w).arr.view.set]{(dat2 V c).share w} (dat2 V c).arrAt w cfg2.N : sProp 𝕄)
      ⊢ (((c : Thread nD τ).loc (Pipeline.arrRef spec2 w)) ↦{(dat2 V c).q w} V' c (Pipeline.arrRef spec2 w)) := by
  rw [arr2, hF]

-- Exit: no window writes the shared buffer, so the three parts hold the same contents and rejoin.
theorem exit2 (V' : (c : Dev nD) → (b : Ref sig .tc) → Buf (Elt F) ((c : Thread nD τ).loc b)) (c : Dev nD)
    (hF : ∀ w, (dat2 V c).arrAt w cfg2.N = V' c (Pipeline.arrRef spec2 w))
    (hrest : ∀ b, b ∉ Finset.univ.image (Pipeline.arrRef spec2) → V' c b = V c b) :
    iprop((dat2 V c).arrays (fun w => (dat2 V c).arrAt w cfg2.N) ∗ Pipeline.unscopedRest spec2 c (V c))
      ⊢ (unscopedBufs c (V' c) : sProp 𝕄) := by
  rw [Pipeline.unscopedBufs_split₀ cfgs 2 winFacts₀2.arr_unscoped c (V' c)]
  refine sep_mono ?_ (Entails.of_eq ?_)
  · show _ ⊢ (Pipeline.arrBufs spec2 c (V' c) : sProp 𝕄)
    rw [arrBufs2_eq]; unfold Dat.arrays; rw [bigSep_W2]
    iintro ⟨Hl, Hrl, Hrr, H10, H16, H12, H17, H14, H18, H190, H191⟩
    isplitl [Hl Hrl Hrr]
    · iapply (pointsTo_share (PosShare.mem_left_op_right fullShare)).2
      isplitl [Hl]; · iapply (arrOut2 V V' c 0 (hF 0)); iexact Hl
      iapply (pointsTo_share (PosShare.mem_left_op_right fullShare.right)).2
      isplitl [Hrl]; · iapply (arrOut2 V V' c 1 (hF 1)); iexact Hrl
      iapply (arrOut2 V V' c 2 (hF 2)); iexact Hrr
    isplitl [H10]; · iapply (arrOut2 V V' c 3 (hF 3)); iexact H10
    isplitl [H16]; · iapply (arrOut2 V V' c 4 (hF 4)); iexact H16
    isplitl [H12]; · iapply (arrOut2 V V' c 5 (hF 5)); iexact H12
    isplitl [H17]; · iapply (arrOut2 V V' c 6 (hF 6)); iexact H17
    isplitl [H14]; · iapply (arrOut2 V V' c 7 (hF 7)); iexact H14
    isplitl [H18]; · iapply (arrOut2 V V' c 8 (hF 8)); iexact H18
    isplitl [H190]; · iapply (arrOut2 V V' c 9 (hF 9)); iexact H190
    iapply (arrOut2 V V' c 10 (hF 10)); iexact H191
  · show Pipeline.unscopedRest spec2 c (V c) = Pipeline.unscopedRest spec2 c (V' c)
    unfold Pipeline.unscopedRest
    exact bigSep_congr fun b hb => by rw [hrest b (Finset.mem_sdiff.mp hb).2]

end Cert.Kernel.Hand

end
-- ==== Proof.K.Run.lean ====
import proofs.«425388_j31877247271269_3_alg».proof.Proof.K.Fold
import proofs.«425388_j31877247271269_3_alg».proof.Proof.K.R2
import proofs.«425388_j31877247271269_3_alg».proof.Proof.Gen.Kernel.Regions

noncomputable section

namespace Cert.Kernel.Hand

open Idealize.ShloMosaic Idealize.ShloMosaic.TcCoe Idealize.ShloMosaic.Tactic Idealize.ShloMosaic.Rounds
open Idealize.SL Idealize.SL.BI Idealize.SL.BI.BIBase Idealize.SL.BI.Laws Idealize.SL.ProofMode Idealize.SL.Sem Cert.Kernel.Gen
open scoped Idealize.SL.BI
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev pinAt (F : FTy → Type) [FloatOps F] (p : Fin 3) := Pipeline.pin (pcfgs (F := F)) adm p
def pdats : (p : Fin 3) → (c : Dev nD) → Dat τ (Elt F) Unit ℕ (UR sig nD τ) ℕ (pinAt F p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

abbrev restAt (p : Fin 3) (Wi : Dev nD → Valuation τ sig (Elt F)) (c : Dev nD) : sProp 𝕄 :=
  Pipeline.unscopedRest (Ix := Unit) (Name := ℕ) (U := UR sig nD τ) (Lvl := ℕ) (pinAt F p).spec c (fun b => Wi c b)

set_option backward.isDefEq.respectTransparency.types false in
/-- A region between two valuations of the unscoped buffers: entry splits its arrays off them, exit joins them back. -/
def mkReg (p : Fin 3) (win : Pipeline.WinFacts₀ (pcfgs (F := F) p).spec)
    (block_pos : ∀ w : Fin (pinAt F p).W, 0 < ((pinAt F p).spec w).block.numel)
    (stage_whole : ∀ (w : Fin (pinAt F p).W) (s : Fin ((pinAt F p).spec w).nbuf), (((pinAt F p).spec w).stage s).IsWhole)
    (hbody : ∀ c, Pipeline.BodyObligationLoose (pdats m ρ p c) defs₀ 𝒱₀ () Set.univ)
    (howed : ∀ c t, (pdats m ρ p c).owed t = 0) (hrec : ∀ c x, x ∈ (pdats m ρ p c).recorded 0) (hK : IsEmpty (Fin (pcfgs (F := F) p).pre.K))
    (Wi Wo : Dev nD → Valuation τ sig (Elt F))
    (hsplit : ∀ c, (unscopedBufs c (fun b => Wi c b) : sProp 𝕄) ⊢ iprop((pdats m ρ p c).arrays ((pdats m ρ p c).arrAt · 0) ∗ restAt p Wi c))
    (hjoin : ∀ c, iprop((pdats m ρ p c).arrays ((pdats m ρ p c).arrAt · (pinAt F p).N) ∗ restAt p Wi c)
      ⊢ (unscopedBufs c (fun b => Wo c b) : sProp 𝕄))
    (hΦi : ∀ c, Pipeline.ΦA (pinAt F p).spec c ⊢ (pdats m ρ p c).Φ 0)
    (hΦo : ∀ c, (pdats m ρ p c).Φ (Fin.last _) ⊢ Pipeline.ΦA (pinAt F p).spec c) :
    Pipeline.RegionSeg (pcfgs (F := F)) adm (pdats m ρ) () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := restAt p Wi c
  hentry c := by
    have hs := hsplit c
    rw [Pipeline.unscopedBufs_held] at hs
    rw [Pipeline.ownSems0_none]; unfold Pipeline.Dat.owesAt Pipeline.owesWithin Pipeline.prefHeld
    rw [howed c, Finset.univ_eq_empty, BI.bigSep_empty]
    iintro ⟨⟨Hub, Hp, %W, HO⟩, -, -⟩
    ihave H := hs $$ Hub
    icases H with ⟨Ha, Hrest⟩
    imodintro
    isplitl [Ha]; · iexact Ha
    isplitr; · iempintro
    isplitl [HO]
    · iexists W; isplitr; · ipureintro; exact fun _ _ => Or.inl (hrec c _)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hj := hjoin c
    rw [Pipeline.unscopedBufs_held] at hj
    unfold Pipeline.Dat.owesAt Pipeline.owesWithin
    rw [howed c]
    iintro ⟨Ha, ⟨%W, -, HO⟩, HY, Hrest⟩
    imodintro
    isplitl [Ha Hrest]
    · iapply hj; isplitl [Ha] <;> iassumption
    isplitl [HY]; · iexact HY
    iexists W; iexact HO

set_option backward.isDefEq.respectTransparency.types false in
def reg0 : Pipeline.RegionSeg (pcfgs (F := F)) adm (pdats m ρ) () defs₀ 𝒱₀ L lv 0 :=
  mkReg m ρ 0 launch0.win.to₀ launch0.block_pos launch0.stage_whole (fun c => (body_obligation0 (V1 m ρ) c).loose) (fun _ _ => rfl) (fun _ _ => trivial)
    (inferInstanceAs (IsEmpty (Fin 0))) (W1 m ρ) (W2 m ρ)
    (fun c => Pipeline.arrays_of_unscopedBufs (p := 0) (pcfgs (F := F)) adm (pdats m ρ) launch0.win launch0.arr_whole c
      ((pdats m ρ 0 c).share_full fun _ => rfl) (V1 m ρ c) fun _ => rfl)
    (fun c => Pipeline.unscopedBufs_of_arrays (p := 0) (pcfgs (F := F)) adm launch0.win launch0.arr_whole c (pdats m ρ) ((pdats m ρ 0 c).share_full fun _ => rfl)
      (V1 m ρ c) (fun b => W2 m ρ c b) ((pdats m ρ 0 c).arrAt · cfg0.N) (fun w => (W2_arr m ρ c w).symm)
      fun b hb => W2_of_ne m ρ c b (ne_of_not_image hb))
    (fun _ => .rfl) (fun _ => .rfl)

set_option backward.isDefEq.respectTransparency.types false in
def reg1 : Pipeline.RegionSeg (pcfgs (F := F)) adm (pdats m ρ) () defs₀ 𝒱₀ L lv 1 :=
  mkReg m ρ 1 launch1.win.to₀ launch1.block_pos launch1.stage_whole (fun c => (body_obligation1 (V3 m ρ) c).loose) (fun _ _ => rfl) (fun _ _ => trivial)
    (inferInstanceAs (IsEmpty (Fin 0))) (W3 m ρ) (W4 m ρ)
    (fun c => Pipeline.arrays_of_unscopedBufs (p := 1) (pcfgs (F := F)) adm (pdats m ρ) launch1.win launch1.arr_whole c
      ((pdats m ρ 1 c).share_full fun _ => rfl) (V3 m ρ c) fun _ => rfl)
    (fun c => Pipeline.unscopedBufs_of_arrays (p := 1) (pcfgs (F := F)) adm launch1.win launch1.arr_whole c (pdats m ρ) ((pdats m ρ 1 c).share_full fun _ => rfl)
      (V3 m ρ c) (fun b => W4 m ρ c b) ((pdats m ρ 1 c).arrAt · cfg1.N) (fun w => (W4_arr m ρ c w).symm)
      fun b hb => W4_of_ne m ρ c b (ne_of_not_image hb))
    (hin1 (V3 m ρ)) (hout1 (V3 m ρ))

set_option backward.isDefEq.respectTransparency.types false in
def reg2 : Pipeline.RegionSeg (pcfgs (F := F)) adm (pdats m ρ) () defs₀ 𝒱₀ L lv 2 :=
  mkReg m ρ 2 winFacts₀2 block_pos2 stage_whole2 (fun c => (body_obligation2 (V5 m ρ) c).loose) (fun _ _ => rfl) (fun _ _ => trivial)
    (inferInstanceAs (IsEmpty (Fin 0))) (W5 m ρ) (W6 m ρ) (entry2 (V5 m ρ))
    (fun c => exit2 (V5 m ρ) (V6 m ρ) c (hF2 m ρ c) (hrest2 m ρ c)) (fun _ => .rfl) (fun _ => .rfl)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => hQ s h)

/-- A buffer that nothing writes ends as launched. -/
theorem kept (s : MemSt nD τ sig (Elt F))
    (h : ∀ c : Dev nD, ∀ b ∈ Pipeline.ucRefs τ sig, s.mem (((c : Thread nD τ)).1, b) = W6 m ρ c b) (c : Dev nD) (b : Ref sig .tc) :
    (¬ (Proc.devRef .tc b : DevRef τ sig).isScoped ∧ (b ≠ main_v19_0 ∧ b ≠ main_v19_1) ∧ b ∉ written2 ∧ (∀ w, Pipeline.arrRef spec1 w ≠ b)
      ∧ b ∉ written1 ∧ ((∀ w, Pipeline.arrRef spec0 w ≠ b) ∨ b = main_arg2) ∧ b ∉ written0) →
    s.mem ((c.tc : Thread nD τ).loc b) = m ((c.tc : Thread nD τ).loc b)
  | ⟨h0, h6, h5, h4, h3, h2, h1⟩ => (h c _ (mem_uc b h0)).trans ((W6_of_ne m ρ c b h6.1 h6.2).trans (W5_keep m ρ c b h5 h4 h3 h2 h1))

theorem args_kept (s : MemSt nD τ sig (Elt F))
    (h : ∀ c : Dev nD, ∀ b ∈ Pipeline.ucRefs τ sig, s.mem (((c : Thread nD τ)).1, b) = W6 m ρ c b) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15) := by
  refine ⟨?_, ?_, ?_, ?_, ?_, ?_, ?_, ?_, ?_, ?_, ?_, ?_, ?_, ?_, ?_, ?_⟩ <;> exact kept m ρ s h c _ (by decide)

end Cert.Kernel.Hand

end
-- ==== Proof.KI.R0.lean ====
import proofs.«425388_j31877247271269_3_alg».proof.Proof.Gen.KernelIdeal.Launch
import proofs.«425388_j31877247271269_3_alg».proof.Proof.Gen.KernelIdeal.Skeleton
import proofs.«425388_j31877247271269_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev allEfeat : Rect S6400x128 := Rect.unit (s := S6400x128) ![0, 0] S6400x128.size inb_S6400x128_S6400x128_0_0
abbrev allTdiff : Rect S6400x1 := Rect.unit (s := S6400x1) ![0, 0] S6400x1.size inb_S6400x1_S6400x1_0_0
abbrev allRow : Rect S1x128 := Rect.unit (s := S1x128) ![0, 0] S1x128.size inb_S1x128_S1x128_0_0
abbrev allOut : Rect S6400x256 := Rect.unit (s := S6400x256) ![0, 0] S6400x256.size inb_S6400x256_S6400x256_0_0

def out0_4 (x0 : Vec F S6400x128 .f32) (x1 : Vec F S6400x1 .f32) (x2 x3 : Vec F S1x128 .f32) : Vec F S6400x256 .bf16 :=
  View.canon [⟨allOut, k0_pay2 (View.ld x0 allEfeat) (View.ld x1 allTdiff) (View.ld x2 allRow) (View.ld x3 allRow)⟩]

def out0_5 (x0 : Vec F S6400x128 .f32) (x1 : Vec F S6400x1 .f32) (x2 x3 : Vec F S1x128 .f32) : Vec F S6400x256 .bf16 :=
  View.canon [⟨allOut, k0_pay3 (View.ld x0 allEfeat) (View.ld x1 allTdiff) (View.ld x2 allRow) (View.ld x3 allRow)⟩]

theorem allOut_covers (p : Vec F S6400x256 .bf16) (y : S6400x256.Idx) :
    ∃ pc ∈ ([⟨allOut, p⟩] : List (View.Piece (Elt F) S6400x256 .bf16)), y ∈ pc.1.set :=
  View.cover_of_tiled [⟨allOut, p⟩] S6400x256.size (by rfl) y

set_option maxHeartbeats 1000000 in
theorem efeat_prologue_triple (c : Dev nD) (E : Set ℕ) (i : grid0.Coords)
    (arg1 : Memref sig .tc .vmem S6400x128 .f32) (harg1 : arg1.IsWhole) (arg2 : Memref sig .tc .vmem S6400x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S6400x256 .bf16) (harg5 : arg5.IsWhole) (arg6 : Memref sig .tc .vmem S6400x256 .bf16) (harg6 : arg6.IsWhole)
    (x0 : Vec F S6400x128 .f32) (x1 : Vec F S6400x1 .f32) (x2 x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (out0_5 x0 x1 x2 x3)) -∗ K ⟨⟩))
      ⊢ wp frame (wpE (defs₀ (F := F)) Variants.none c none) E
          (cc0__efeat_prologue_kernel i arg1 harg1 arg2 harg2 arg3 harg3 arg4 harg4 arg5 harg5 arg6 harg6) K := by
  simp only [cc0__efeat_prologue_kernel_eq_skeleton]; unfold cc0__efeat_prologue_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (allOut_covers _)
  iexists _; isplitr
  swap; · iexact H5
  ipureintro
  exact View.read_writes_eq_canon _ _ _ (allOut_covers _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_4 (c : Dev nD) (t : Fin cfg0.N) :
    (dat0 V c).after 4 t = out0_4 (iblk0 V c 0 t) (iblk0 V c 1 t) (iblk0 V c 2 t) (iblk0 V c 3 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

theorem body_obligation0 (c : Dev nD) : BodyObligation (dat0 (F := F) V c) (defs₀ (F := F)) Variants.none () Set.univ := fun t => by
  rw [bigSep_W0, bigSep_W0]
  simp only [(dat0 V c).before_in_eq_fetched 0 rfl (fun _ => rfl) (fun _ _ _ => rfl) (fun _ => rfl) t,
    (dat0 V c).before_in_eq_fetched 1 rfl (fun _ => rfl) (fun _ _ _ => rfl) (fun _ => rfl) t,
    (dat0 V c).before_in_eq_fetched 2 rfl (fun _ => rfl) (fun _ _ _ => rfl) (fun _ => rfl) t,
    (dat0 V c).before_in_eq_fetched 3 rfl (fun _ => rfl) (fun _ _ _ => rfl) (fun _ => rfl) t]
  rw [show (dat0 V c).Φ t.succ = (dat0 V c).Φ t.castSucc from rfl,
    show (dat0 V c).owesAt () t.succ = (dat0 V c).owesAt () t.castSucc from rfl, after0_4, after0_5]
  show _ ⊢ wp frame (wpE (defs₀ (F := F)) Variants.none c none) Set.univ (bodyAt0 t) _
  iintro ⟨HΦ, Ho, ⟨%d0, H0⟩, ⟨%d1, H1⟩, ⟨%d2, H2⟩, ⟨%d3, H3⟩, ⟨%d4, H4⟩, ⟨%d5, H5⟩⟩
  iapply (efeat_prologue_triple c Set.univ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro H
  isplitl [HΦ]; · iexact HΦ
  isplitl [Ho]; · iexact Ho
  iexact H

end Cert.KernelIdeal.Hand

end
-- ==== Proof.KI.R1Runs.lean ====
import proofs.«425388_j31877247271269_3_alg».proof.Proof.Gen.KernelIdeal.Launch
import proofs.«425388_j31877247271269_3_alg».proof.Proof.Gen.KernelIdeal.Skeleton
import proofs.«425388_j31877247271269_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)

abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev ms1_0 (t : Fin cfg1.N) : Memref sig .tc .vmem S6144x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x6400 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S6400x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6400x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S6144x256 .f32 := win1_4.stage (cfg1.slots t 4)
abbrev hs1_4 (t : Fin cfg1.N) : (ms1_4 t).IsWhole := hstage1_4 ((cfg1.slots t 4).cast nbuf1_4)
abbrev scM1_0 : Memref sig .tc .vmem S6144x256 .f32 := Memref.whole cc1_scratch0

theorem PhiA1_eq (c : Dev nD) :
    (Pipeline.ΦA spec1 c : sProp 𝕄)
      = iprop(iprop(iprop((∃ d, owns (c : Thread nD τ) scM1_0 fullShare d))
            ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1_0, owns_whole]; try rfl

variable (c : Dev nD) (i : grid1.Coords) (arg2 : Memref sig .tc .vmem S6144x1 .i32) (harg2 : arg2.IsWhole) (arg3 : Memref sig .tc .vmem S1x6400 .i32) (harg3 : arg3.IsWhole) (arg4 : Memref sig .tc .vmem S6400x256 .bf16) (harg4 : arg4.IsWhole) (arg5 : Memref sig .tc .vmem S6400x256 .bf16) (harg5 : arg5.IsWhole) (arg6 : Memref sig .tc .vmem S6144x256 .f32) (harg6 : arg6.IsWhole) (arg7 : Memref sig .tc .vmem S6144x256 .f32) (harg7 : arg7.IsWhole)
  (x0 : Vec F S6144x1 .i32) (x1 : Vec F S1x6400 .i32) (x2 : Vec F S6400x256 .bf16) (x3 : Vec F S6400x256 .bf16)

/-- The one shape of the body's run in its three control cases: Q6 and Q7 are what it needs of the output block and of the running sum, P6 what the output block comes back as, LS the pieces written to the running sum. -/
abbrev Runs1 (Q6 Q7 P6 : sProp 𝕄) (LS : List (View.Piece (Elt F) S6144x256 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ Q6 ∗ Q7
        ∗ (iprop(owns (c : Thread nD τ) arg2 fullShare x0 ∗ owns (c : Thread nD τ) arg3 fullShare x1 ∗ owns (c : Thread nD τ) arg4 fullShare x2 ∗ owns (c : Thread nD τ) arg5 fullShare x3 ∗ P6 ∗ (∃ f, arg7.view.loc (c : Thread nD τ) ↦[arg7.view.set]{fullShare} arg7.view.writes (Elt F) f LS)) -∗ K ⟨⟩))
      ⊢ wp frame (wpE (defs₀ (F := F)) Variants.none c none) E (cc1__gather_reduce_kernel i arg2 harg2 arg3 harg3 arg4 harg4 arg5 harg5 arg6 harg6 arg7 harg7) K

end Cert.KernelIdeal.Hand

end
-- ==== Proof.KI.R1RunA.lean ====
import proofs.«425388_j31877247271269_3_alg».proof.Proof.KI.R1Runs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid1.Coords) (arg2 : Memref sig .tc .vmem S6144x1 .i32) (harg2 : arg2.IsWhole) (arg3 : Memref sig .tc .vmem S1x6400 .i32) (harg3 : arg3.IsWhole) (arg4 : Memref sig .tc .vmem S6400x256 .bf16) (harg4 : arg4.IsWhole) (arg5 : Memref sig .tc .vmem S6400x256 .bf16) (harg5 : arg5.IsWhole) (arg6 : Memref sig .tc .vmem S6144x256 .f32) (harg6 : arg6.IsWhole) (arg7 : Memref sig .tc .vmem S6144x256 .f32) (harg7 : arg7.IsWhole)

set_option maxHeartbeats 1000000 in
/-- At a first point the running sum is cleared before it is read: it is needed at no particular contents. -/
def kernelRun1_A (hc0 : cond1_0 i) (hc1 : ¬cond1_1 i) (x0 : Vec F S6144x1 .i32) (x1 : Vec F S1x6400 .i32) (x2 : Vec F S6400x256 .bf16) (x3 : Vec F S6400x256 .bf16) :
    { LS : List (View.Piece (Elt F) S6144x256 .f32) // ∀ xo, Runs1 c i arg2 harg2 arg3 harg3 arg4 harg4 arg5 harg5 arg6 harg6 arg7 harg7 x0 x1 x2 x3 (owns (c : Thread nD τ) arg6 fullShare xo) iprop(∃ d, owns (c : Thread nD τ) arg7 fullShare d) (owns (c : Thread nD τ) arg6 fullShare xo) LS } := by
  refine ⟨?_, fun xo E K => ?run⟩
  case run =>
    simp only [cc1__gather_reduce_kernel_eq_skeleton]; unfold cc1__gather_reduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.R1RunB.lean ====
import proofs.«425388_j31877247271269_3_alg».proof.Proof.KI.R1RunA

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid1.Coords) (arg2 : Memref sig .tc .vmem S6144x1 .i32) (harg2 : arg2.IsWhole) (arg3 : Memref sig .tc .vmem S1x6400 .i32) (harg3 : arg3.IsWhole) (arg4 : Memref sig .tc .vmem S6400x256 .bf16) (harg4 : arg4.IsWhole) (arg5 : Memref sig .tc .vmem S6400x256 .bf16) (harg5 : arg5.IsWhole) (arg6 : Memref sig .tc .vmem S6144x256 .f32) (harg6 : arg6.IsWhole) (arg7 : Memref sig .tc .vmem S6144x256 .f32) (harg7 : arg7.IsWhole)

set_option maxHeartbeats 1000000 in
def kernelRun1_B (hc0 : ¬cond1_0 i) (hc1 : ¬cond1_1 i) (x0 : Vec F S6144x1 .i32) (x1 : Vec F S1x6400 .i32) (x2 : Vec F S6400x256 .bf16) (x3 : Vec F S6400x256 .bf16) (xs : Vec F S6144x256 .f32) :
    { LS : List (View.Piece (Elt F) S6144x256 .f32) // ∀ xo, Runs1 c i arg2 harg2 arg3 harg3 arg4 harg4 arg5 harg5 arg6 harg6 arg7 harg7 x0 x1 x2 x3 (owns (c : Thread nD τ) arg6 fullShare xo) (owns (c : Thread nD τ) arg7 fullShare xs) (owns (c : Thread nD τ) arg6 fullShare xo) LS } := by
  refine ⟨?_, fun xo E K => ?run⟩
  case run =>
    simp only [cc1__gather_reduce_kernel_eq_skeleton]; unfold cc1__gather_reduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.R1RunC.lean ====
import proofs.«425388_j31877247271269_3_alg».proof.Proof.KI.R1RunB

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid1.Coords) (arg2 : Memref sig .tc .vmem S6144x1 .i32) (harg2 : arg2.IsWhole) (arg3 : Memref sig .tc .vmem S1x6400 .i32) (harg3 : arg3.IsWhole) (arg4 : Memref sig .tc .vmem S6400x256 .bf16) (harg4 : arg4.IsWhole) (arg5 : Memref sig .tc .vmem S6400x256 .bf16) (harg5 : arg5.IsWhole) (arg6 : Memref sig .tc .vmem S6144x256 .f32) (harg6 : arg6.IsWhole) (arg7 : Memref sig .tc .vmem S6144x256 .f32) (harg7 : arg7.IsWhole)

set_option maxHeartbeats 1000000 in
/-- At a last point the final sum is also stored over the whole output block (the pieces LO), which is needed at no particular contents. -/
def kernelRun1_C (hc0 : ¬cond1_0 i) (hc1 : cond1_1 i) (x0 : Vec F S6144x1 .i32) (x1 : Vec F S1x6400 .i32) (x2 : Vec F S6400x256 .bf16) (x3 : Vec F S6400x256 .bf16) (xs : Vec F S6144x256 .f32) :
    Σ' LO : List (View.Piece (Elt F) S6144x256 .f32), { LS : List (View.Piece (Elt F) S6144x256 .f32) //
      Runs1 c i arg2 harg2 arg3 harg3 arg4 harg4 arg5 harg5 arg6 harg6 arg7 harg7 x0 x1 x2 x3 iprop(∃ d, owns (c : Thread nD τ) arg6 fullShare d) (owns (c : Thread nD τ) arg7 fullShare xs) iprop(∃ f, arg6.view.loc (c : Thread nD τ) ↦[arg6.view.set]{fullShare} arg6.view.writes (Elt F) f LO) LS } := by
  refine ⟨?_, ?_, fun E K => ?run⟩
  case run =>
    simp only [cc1__gather_reduce_kernel_eq_skeleton]; unfold cc1__gather_reduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KI.R1.lean ====
import proofs.«425388_j31877247271269_3_alg».proof.Proof.KI.R1RunC

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid1.Coords) (arg2 : Memref sig .tc .vmem S6144x1 .i32) (harg2 : arg2.IsWhole) (arg3 : Memref sig .tc .vmem S1x6400 .i32) (harg3 : arg3.IsWhole) (arg4 : Memref sig .tc .vmem S6400x256 .bf16) (harg4 : arg4.IsWhole) (arg5 : Memref sig .tc .vmem S6400x256 .bf16) (harg5 : arg5.IsWhole) (arg6 : Memref sig .tc .vmem S6144x256 .f32) (harg6 : arg6.IsWhole) (arg7 : Memref sig .tc .vmem S6144x256 .f32) (harg7 : arg7.IsWhole)

section
variable (hc0 : cond1_0 i) (hc1 : ¬cond1_1 i) (x0 : Vec F S6144x1 .i32) (x1 : Vec F S1x6400 .i32) (x2 : Vec F S6400x256 .bf16) (x3 : Vec F S6400x256 .bf16)
def sout1_A_0 : Vec F S6144x256 .f32 := View.canon (kernelRun1_A c i arg2 harg2 arg3 harg3 arg4 harg4 arg5 harg5 arg6 harg6 arg7 harg7 hc0 hc1 x0 x1 x2 x3).1
end
section
variable (hc0 : ¬cond1_0 i) (hc1 : ¬cond1_1 i) (x0 : Vec F S6144x1 .i32) (x1 : Vec F S1x6400 .i32) (x2 : Vec F S6400x256 .bf16) (x3 : Vec F S6400x256 .bf16) (xs : Vec F S6144x256 .f32)
def sout1_B_0 : Vec F S6144x256 .f32 := View.canon (kernelRun1_B c i arg2 harg2 arg3 harg3 arg4 harg4 arg5 harg5 arg6 harg6 arg7 harg7 hc0 hc1 x0 x1 x2 x3 xs).1
end
section
variable (hc0 : ¬cond1_0 i) (hc1 : cond1_1 i) (x0 : Vec F S6144x1 .i32) (x1 : Vec F S1x6400 .i32) (x2 : Vec F S6400x256 .bf16) (x3 : Vec F S6400x256 .bf16) (xs : Vec F S6144x256 .f32)
def out1_C_4 : Vec F S6144x256 .f32 := View.canon (kernelRun1_C c i arg2 harg2 arg3 harg3 arg4 harg4 arg5 harg5 arg6 harg6 arg7 harg7 hc0 hc1 x0 x1 x2 x3 xs).1
def sout1_C_0 : Vec F S6144x256 .f32 := View.canon (kernelRun1_C c i arg2 harg2 arg3 harg3 arg4 harg4 arg5 harg5 arg6 harg6 arg7 harg7 hc0 hc1 x0 x1 x2 x3 xs).2.1
end
end

def out1_idle_4 : Vec F S6144x256 .f32 := View.canon []

theorem c1_0_of {t : Fin cfg1.N} (h : t.val % 50 = 0) : cond1_0 (grid1.coords t) := (hcond1_0 t).mpr h
theorem nc1_0_of {t : Fin cfg1.N} (h : ¬t.val % 50 = 0) : ¬cond1_0 (grid1.coords t) := fun h' => h ((hcond1_0 t).mp h')
theorem c1_1_of {t : Fin cfg1.N} (h : t.val % 50 = 49) : cond1_1 (grid1.coords t) := (hcond1_1 t).mpr h
theorem nc1_1_of {t : Fin cfg1.N} (h : ¬t.val % 50 = 49) : ¬cond1_1 (grid1.coords t) := fun h' => h ((hcond1_1 t).mp h')

/-- What the point at position t leaves in the output block and in the running sum, over the running sum xs it finds. -/
def step1 (c : Dev nD) (t : Fin cfg1.N) (xs : Vec F S6144x256 .f32) : Vec F S6144x256 .f32 × Vec F S6144x256 .f32 :=
  if h0 : t.val % 50 = 0 then
    (out1_idle_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) (c1_0_of h0) (nc1_1_of (by omega)) (iblk1 V c 0 t) (iblk1 V c 1 t) (iblk1 V c 2 t) (iblk1 V c 3 t))
  else if h1 : t.val % 50 = 49 then
    (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (nc1_0_of h0) (c1_1_of h1) (iblk1 V c 0 t) (iblk1 V c 1 t) (iblk1 V c 2 t) (iblk1 V c 3 t) xs,
     sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (nc1_0_of h0) (c1_1_of h1) (iblk1 V c 0 t) (iblk1 V c 1 t) (iblk1 V c 2 t) (iblk1 V c 3 t) xs)
  else (out1_idle_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (nc1_0_of h0) (nc1_1_of h1) (iblk1 V c 0 t) (iblk1 V c 1 t) (iblk1 V c 2 t) (iblk1 V c 3 t) xs)

def outsAt1 (c : Dev nD) : (n : ℕ) → n < cfg1.N → Vec F S6144x256 .f32 × Vec F S6144x256 .f32
  | 0, hn => step1 V c ⟨0, hn⟩ out1_idle_4
  | n + 1, hn => step1 V c ⟨n + 1, hn⟩ (outsAt1 c n (Nat.lt_of_succ_lt hn)).2

theorem pred_lt1 (t : Fin cfg1.N) : t.val - 1 < cfg1.N := Nat.lt_of_le_of_lt (Nat.sub_le _ _) t.isLt

theorem outsAt1_A (c : Dev nD) (t : Fin cfg1.N) (h0 : t.val % 50 = 0) (h1 : ¬t.val % 50 = 49) :
    outsAt1 V c t.val t.isLt
      = (out1_idle_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) (c1_0_of h0) (nc1_1_of h1) (iblk1 V c 0 t) (iblk1 V c 1 t) (iblk1 V c 2 t) (iblk1 V c 3 t)) := by
  obtain ⟨n, hn⟩ := t
  cases n with
  | zero => rfl
  | succ n => exact dif_pos h0

theorem outsAt1_B (c : Dev nD) (t : Fin cfg1.N) (h0 : ¬t.val % 50 = 0) (h1 : ¬t.val % 50 = 49) :
    outsAt1 V c t.val t.isLt
      = (out1_idle_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (nc1_0_of h0) (nc1_1_of h1) (iblk1 V c 0 t) (iblk1 V c 1 t) (iblk1 V c 2 t) (iblk1 V c 3 t) (outsAt1 V c (t.val - 1) (pred_lt1 t)).2) := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 50 = 0) (h1 : t.val % 50 = 49) :
    outsAt1 V c t.val t.isLt
      = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (nc1_0_of h0) (c1_1_of h1) (iblk1 V c 0 t) (iblk1 V c 1 t) (iblk1 V c 2 t) (iblk1 V c 3 t) (outsAt1 V c (t.val - 1) (pred_lt1 t)).2,
         sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (nc1_0_of h0) (c1_1_of h1) (iblk1 V c 0 t) (iblk1 V c 1 t) (iblk1 V c 2 t) (iblk1 V c 3 t) (outsAt1 V c (t.val - 1) (pred_lt1 t)).2) := by
  obtain ⟨n, hn⟩ := t
  cases n with
  | zero => exact absurd (Nat.zero_mod _) h0
  | succ n => exact (dif_neg h0).trans (dif_pos h1)

abbrev rest1 (c : Dev nD) : sProp 𝕄 :=
  Pipeline.scopedRestBut (Ix := Unit) (Name := ℕ) (U := UR sig nD τ) (Lvl := ℕ) (Val := Elt F) spec1 c [cc1_scratch0]

def PhiS1 (c : Dev nD) : (n : ℕ) → n ≤ cfg1.N → sProp 𝕄
  | 0, _ => Pipeline.ΦA spec1 c
  | n + 1, hn => iprop(iprop(owns (c : Thread nD τ) scM1_0 fullShare (outsAt1 V c n hn).2 ∗ rest1 c) ∗ (∃ r, prngReg c r))

theorem PhiS1_succ (c : Dev nD) (n : ℕ) (hn : n < cfg1.N) :
    PhiS1 V c (n + 1) hn = iprop(iprop(owns (c : Thread nD τ) scM1_0 fullShare (outsAt1 V c n hn).2 ∗ rest1 c) ∗ (∃ r, prngReg c r)) := rfl

/-- Past the region's entry the invariant names the running sum; a first point needs it at no particular contents. -/
theorem PhiS1_open (c : Dev nD) (n : ℕ) (h : n ≤ cfg1.N) :
    PhiS1 V c n h ⊢ iprop(∃ xs, ⌜∀ hz : n ≠ 0, xs = (outsAt1 V c (n - 1) (by omega)).2⌝
      ∗ iprop(iprop(owns (c : Thread nD τ) scM1_0 fullShare xs ∗ rest1 c) ∗ (∃ r, prngReg c r))) := by
  cases n with
  | zero =>
    rw [show PhiS1 V c 0 h = Pipeline.ΦA spec1 c from rfl, PhiA1_eq]
    iintro ⟨⟨⟨%d, HS⟩, HR⟩, Hg⟩
    iexists d; isplitr; · ipureintro; exact fun hz => absurd rfl hz
    isplitl [HS HR]
    · isplitl [HS]; · iexact HS
      iexact HR
    iexact Hg
  | succ n =>
    rw [PhiS1_succ]; iintro H; iexists _; isplitr; swap; · iexact H
    ipureintro; exact fun _ => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem after1_4 (c : Dev nD) (t : Fin cfg1.N) : (dat1 V c).after 4 t = (outsAt1 V c t.val t.isLt).1 := by dsimp only [dat1]

theorem before1 (c : Dev nD) (t : Fin cfg1.N) (w : Fin cfg1.W) (hw : w.val < 4) (d) : (dat1 V c).before w t d = (dat1 V c).after w t := by
  fin_cases w <;> first
    | exact absurd hw (by decide)
    | exact (dat1 V c).before_in_eq_fetched _ rfl (fun _ => rfl) (fun _ _ _ => rfl) (fun _ => rfl) t d

/-- No point is idle for an input. -/
theorem leaves1 (c : Dev nD) (t : Fin cfg1.N) (w : Fin cfg1.W) (hw : w.val < 4) :
    (dat1 V c).leavesExact w t = owns (c : Thread nD τ) ((cfg1.win w).stage (cfg1.slots t w)) fullShare ((dat1 V c).after w t) := by
  fin_cases w <;> first | exact absurd hw (by decide) | rfl

theorem Phi1_castSucc (c : Dev nD) (t : Fin cfg1.N) :
    (dat1 V c).Φ t.castSucc = PhiS1 V c t.val (Nat.le_of_lt t.isLt) := by
  dsimp only [dat1]; simp only [Fin.coe_castSucc]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The position's remainder mod 50 selects the run; all that differs afterwards is what the output block is left at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp (disch := decide) only [before1 V]
  rw [show (dat1 V c).owesAt () t.succ = (dat1 V c).owesAt () t.castSucc from rfl,
    show (dat1 V c).Φ t.succ = PhiS1 V c (t.val + 1) t.isLt from rfl, PhiS1_succ, Phi1_castSucc,
    leaves1 V c t 0 (by decide), leaves1 V c t 1 (by decide), leaves1 V c t 2 (by decide), leaves1 V c t 3 (by decide)]
  iintro ⟨HΦ, Ho, ⟨%d0, H0⟩, ⟨%d1, H1⟩, ⟨%d2, H2⟩, ⟨%d3, H3⟩, ⟨%d4, H4⟩⟩
  ihave HΦ' := PhiS1_open V c t.val (Nat.le_of_lt t.isLt) $$ HΦ
  icases HΦ' with ⟨%xs, %hxs, ⟨HS, HR⟩, Hg⟩
  obtain ⟨Q6, Q7, P6, LS, h6, h7, hrun, hsum, hout⟩ : ∃ (Q6 Q7 P6 : sProp 𝕄) (LS : List (View.Piece (Elt F) S6144x256 .f32)),
      (owns (c : Thread nD τ) (ms1_4 t) fullShare ((dat1 V c).before 4 t d4) ⊢ Q6) ∧ (owns (c : Thread nD τ) scM1_0 fullShare xs ⊢ Q7)
      ∧ Runs1 c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) Q6 Q7 P6 LS
      ∧ (∀ f, scM1_0.view.read (Elt F) (scM1_0.view.writes (Elt F) f LS) = (outsAt1 V c t.val t.isLt).2)
      ∧ (P6 ⊢ (dat1 V c).leavesExact 4 t) := by
    by_cases h0 : t.val % 50 = 0
    · have h1 : ¬t.val % 50 = 49 := by omega
      rw [outsAt1_A V c t h0 h1, Dat.leavesExact_idle (dat1 V c) 4 t (idleAt1_4 t (nc1_1_of h1)) (noFlush1_4 t (nc1_1_of h1))]
      unfold sout1_A_0; dsimp only
      exact ⟨_, _, _, _, Idealize.SL.BI.Entails.refl _, by iintro H; iexists _; iexact H, (kernelRun1_A _ _ _ _ _ _ _ _ _ _ _ _ _ _ (c1_0_of h0) (nc1_1_of h1) _ _ _ _).2 _, fun f => View.read_writes_eq_canon _ _ _ (View.cover_of_tiledL _ S6144x256.size (by sl_kernel_rfl)), by iintro H; iexists _; iexact H⟩
    · obtain rfl := hxs fun e => h0 (by rw [e])
      by_cases h1 : t.val % 50 = 49
      · rw [outsAt1_C V c t h0 h1, show (dat1 V c).leavesExact 4 t = owns (c : Thread nD τ) (ms1_4 t) fullShare ((dat1 V c).after 4 t) from by
          unfold Dat.leavesExact; rw [liveAt1_4 t (c1_1_of h1)], after1_4, outsAt1_C V c t h0 h1]
        unfold out1_C_4 sout1_C_0; dsimp only
        refine ⟨_, _, _, _, by iintro H; iexists _; iexact H, Idealize.SL.BI.Entails.refl _, (kernelRun1_C _ _ _ _ _ _ _ _ _ _ _ _ _ _ (nc1_0_of h0) (c1_1_of h1) _ _ _ _ _).2.2, fun f => View.read_writes_eq_canon _ _ _ (View.cover_of_tiledL _ S6144x256.size (by sl_kernel_rfl)), ?_⟩
        iintro ⟨%f, H⟩; unfold owns; iexists _; isplitr; swap; · iexact H
        ipureintro; exact View.read_writes_eq_canon _ _ _ (View.cover_of_tiledL _ S6144x256.size (by sl_kernel_rfl))
      · rw [outsAt1_B V c t h0 h1, Dat.leavesExact_idle (dat1 V c) 4 t (idleAt1_4 t (nc1_1_of h1)) (noFlush1_4 t (nc1_1_of h1))]
        unfold sout1_B_0; dsimp only
        exact ⟨_, _, _, _, Idealize.SL.BI.Entails.refl _, Idealize.SL.BI.Entails.refl _, (kernelRun1_B _ _ _ _ _ _ _ _ _ _ _ _ _ _ (nc1_0_of h0) (nc1_1_of h1) _ _ _ _ _).2 _, fun f => View.read_writes_eq_canon _ _ _ (View.cover_of_tiledL _ S6144x256.size (by sl_kernel_rfl)), by iintro H; iexists _; iexact H⟩
  iapply (hrun Set.univ _)
  isplitl [H0]; · iexact H0
  isplitl [H1]; · iexact H1
  isplitl [H2]; · iexact H2
  isplitl [H3]; · iexact H3
  isplitl [H4]; · iapply h6; iexact H4
  isplitl [HS]; · iapply h7; iexact HS
  iintro ⟨H0, H1, H2, H3, H4, ⟨%es, HS⟩⟩
  isplitl [HS HR Hg]
  · isplitl [HS HR]
    · isplitl [HS]
      · unfold owns; iexists _; isplitr; swap; · iexact HS
        ipureintro; exact hsum _
      iexact HR
    iexact Hg
  isplitl [Ho]; · iexact Ho
  isplitl [H0]; · iexact H0
  isplitl [H1]; · iexact H1
  isplitl [H2]; · iexact H2
  isplitl [H3]; · iexact H3
  iapply hout; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl]
  exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  refine BIBase.Entails.trans (PhiS1_open V c _ _) ?_
  iintro ⟨%xs, -, ⟨HS, HR⟩, Hg⟩
  isplitl [HS HR]
  · isplitl [HS]; · iexists _; iexact HS
    iexact HR
  iexact Hg

end Cert.KernelIdeal.Hand

end
-- ==== Proof.KI.R2Defs.lean ====
import proofs.«425388_j31877247271269_3_alg».proof.Proof.Gen.KernelIdeal.Launch
import proofs.«425388_j31877247271269_3_alg».proof.Proof.Gen.KernelIdeal.Skeleton
import proofs.«425388_j31877247271269_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open Idealize.ShloMosaic.Pipeline (Dat)
open Cert.KernelIdeal Cert.KernelIdeal.Gen

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2048x256 := Rect.unit (s := S2048x256) ![0, 0] S2048x256.size inb_S2048x256_S2048x256_0_0
abbrev r2_1 : Rect S256x128 := Rect.unit (s := S256x128) ![0, 0] S256x128.size inb_S256x128_S256x128_0_0
abbrev r2_2 : Rect S1x128 := Rect.unit (s := S1x128) ![0, 0] S1x128.size inb_S1x128_S1x128_0_0
abbrev r2_3 : Rect S128x1 := Rect.unit (s := S128x1) ![0, 0] S128x1.size inb_S128x1_S128x1_0_0
abbrev r2_4 : Rect S1x1 := Rect.unit (s := S1x1) ![0, 0] S1x1.size inb_S1x1_S1x1_0_0
abbrev r2_5 : Rect S2048x1 := Rect.unit (s := S2048x1) ![0, 0] S2048x1.size inb_S2048x1_S2048x1_0_0

def out2_9 (x0 x1 x2 : Vec F S2048x256 .f32) (x3 : Vec F S256x128 .f32) (x4 : Vec F S1x128 .f32) (x5 : Vec F S256x128 .f32)
    (x6 : Vec F S1x128 .f32) (x7 : Vec F S128x1 .f32) (x8 : Vec F S1x1 .f32) : Vec F S2048x1 .f32 :=
  View.canon [⟨r2_5, k2_pay1 (k2_pay5 (View.ld x0 r2_0) (View.ld x1 r2_0) (View.ld x3 r2_1) (View.ld x4 r2_2) (View.ld x5 r2_1) (View.ld x6 r2_2) (View.ld x7 r2_3)) (k2_pay6 (View.ld x8 r2_4))⟩]

def out2_10 (x0 x1 x2 : Vec F S2048x256 .f32) (x3 : Vec F S256x128 .f32) (x4 : Vec F S1x128 .f32) (x5 : Vec F S256x128 .f32)
    (x6 : Vec F S1x128 .f32) (x7 : Vec F S128x1 .f32) (x8 : Vec F S1x1 .f32) : Vec F S2048x1 .f32 :=
  View.canon [⟨r2_5, k2_pay2 (k2_pay3 (View.ld x0 r2_0) (View.ld x3 r2_1) (View.ld x4 r2_2)) (k2_pay4 (View.ld x2 r2_0) (View.ld x5 r2_1) (View.ld x6 r2_2)) (View.ld x7 r2_3) (View.ld x8 r2_4)⟩]

-- One store of the whole buffer covers it.
theorem cover2 (p0 : Vec F S2048x1 .f32) (y : S2048x1.Idx) :
    ∃ pc ∈ ([⟨r2_5, p0⟩] : List (View.Piece (Elt F) S2048x1 .f32)), y ∈ pc.1.set :=
  View.cover_of_tiled [⟨r2_5, p0⟩] S2048x1.size (by rfl) y

-- Inputs keep their block; windows 0, 1, 2 read one array, so they hold complementary parts of its share.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q w := match w with
    | ⟨0, _⟩ => fullShare.left
    | ⟨1, _⟩ => fullShare.right.left
    | ⟨2, _⟩ => fullShare.right.right
    | _ => fullShare
  owed _ := 0

theorem A_eq2 (c : Dev nD) (w : Fin cfg2.W) : (dat2 V c).A w = V c (Pipeline.arrRef spec2 w) := by
  dsimp only [dat2]

theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

end Cert.KernelIdeal.Hand

end
-- ==== Proof.KI.HostVals.lean ====
import proofs.«425388_j31877247271269_3_alg».proof.Proof.Gen.KernelIdeal.Launch
import Idealize.ShloMosaic.Lib.StableHlo.Run

noncomputable section

namespace Cert.KernelIdeal.Hand

open Idealize.ShloMosaic Idealize.ShloMosaic.TcCoe Idealize.ShloMosaic.StableHlo
open Cert.KernelIdeal Cert.KernelIdeal.Gen

variable {F : FTy → Type} [FloatOps F] (X : Valuation τ sig (Elt F))

def srcWords (src : IVec S320000 32) : IVec S320000x1 32 :=
  broadcastInDim S320000x1 ![0] bcast_S320000_S320000x1_0
    (select (cmpi CmpIPredicate.slt src (broadcastInDim S320000 ![] bcast_S_S320000 (constantI S_ 32 0#32)))
      (addi src (broadcastInDim S320000 ![] bcast_S_S320000 (constantI S_ 32 100000#32))) src)

def timeDiff (src : IVec S320000 32) (bt : FVec F S320000 .f32) (nodeTs : FVec F S100000 .f32) : FVec F S320000 .f32 :=
  subf bt (Host.gather gather_S100000_S320000x1_S320000_n_0_n_n_0_1_1 nodeTs (srcWords src))

theorem host0_v8 : StableHlo.after (hostOps0 (F := F)) X (Proc.devRef .tc main_v8)
    = shapeCast S320000x1 (timeDiff (X (Proc.devRef .tc main_arg0)) (X (Proc.devRef .tc main_arg3)) (X (Proc.devRef .tc main_arg4))) shapeCasts_S320000_S320000x1 := by
  dsimp only [hostOps0]; after_results; rfl
theorem host0_v9 : StableHlo.after (hostOps0 (F := F)) X (Proc.devRef .tc main_v9)
    = shapeCast S1x128 (X (Proc.devRef .tc main_arg8)) shapeCasts_S128_S1x128 := by
  dsimp only [hostOps0]; after_results; rfl
theorem host0_v10 : StableHlo.after (hostOps0 (F := F)) X (Proc.devRef .tc main_v10)
    = shapeCast S1x128 (X (Proc.devRef .tc main_arg9)) shapeCasts_S128_S1x128 := by
  dsimp only [hostOps0]; after_results; rfl

theorem host1_v13 : StableHlo.after (hostOps1 (F := F)) X (Proc.devRef .tc main_v13)
    = shapeCast S12288x1 (concatenate S12288 0 [⟨S4096, X (Proc.devRef .tc main_arg5)⟩, ⟨S4096, X (Proc.devRef .tc main_arg6)⟩, ⟨S4096, X (Proc.devRef .tc main_arg7)⟩] concatenates_S4096_S4096_S4096_S12288_d0) shapeCasts_S12288_S12288x1 := by
  dsimp only [hostOps1]; after_results; rfl
theorem host1_v14 : StableHlo.after (hostOps1 (F := F)) X (Proc.devRef .tc main_v14)
    = shapeCast S1x320000 (X (Proc.devRef .tc main_arg1)) shapeCasts_S320000_S1x320000 := by
  dsimp only [hostOps1]; after_results; rfl

theorem host2_v16 : StableHlo.after (hostOps2 (F := F)) X (Proc.devRef .tc main_v16)
    = shapeCast S1x128 (X (Proc.devRef .tc main_arg11)) shapeCasts_S128_S1x128 := by
  dsimp only [hostOps2]; after_results; rfl
theorem host2_v17 : StableHlo.after (hostOps2 (F := F)) X (Proc.devRef .tc main_v17)
    = shapeCast S1x128 (X (Proc.devRef .tc main_arg13)) shapeCasts_S128_S1x128 := by
  dsimp only [hostOps2]; after_results; rfl
theorem host2_v18 : StableHlo.after (hostOps2 (F := F)) X (Proc.devRef .tc main_v18)
    = shapeCast S1x1 (X (Proc.devRef .tc main_arg15)) shapeCasts_S1_S1x1 := by
  dsimp only [hostOps2]; after_results; rfl

abbrev written0 : List (Ref sig .tc) := [main_c, main_v0, main_v1, main_c_0, main_v2, main_v3, main_v4, main_v5, main_v6, main_v7, main_v8, main_v9, main_v10]
abbrev written1 : List (Ref sig .tc) := [main_v12, main_v13, main_v14]
abbrev written2 : List (Ref sig .tc) := [main_v16, main_v17, main_v18]

/-- A buffer that differs from every result buffer of a stretch is written by none of its operations. -/
theorem hosts_keep (b : Ref sig .tc) :
    (b ∉ written0 → StableHlo.after (hostOps0 (F := F)) X (Proc.devRef .tc b) = X (Proc.devRef .tc b))
    ∧ (b ∉ written1 → StableHlo.after (hostOps1 (F := F)) X (Proc.devRef .tc b) = X (Proc.devRef .tc b))
    ∧ (b ∉ written2 → StableHlo.after (hostOps2 (F := F)) X (Proc.devRef .tc b) = X (Proc.devRef .tc b)) := by
  refine ⟨fun h => ?_, fun h => ?_, fun h => ?_⟩ <;>
  · refine StableHlo.after_of_forall_not_mem _ _ (List.forall_iff_forall_mem.mp ?_)
    simp only [hostOps0, hostOps1, hostOps2, List.Forall, StableHlo.nullary_writes, StableHlo.unary_writes, StableHlo.binary_writes,
      StableHlo.ternary_writes, StableHlo.nary_writes, StableHlo.reshape_writes, Finset.mem_singleton]
    simp only [List.mem_cons, List.mem_nil_iff, or_false, not_or] at h
    repeat' apply And.intro
    all_goals exact StableHlo.devRef_ne_of_ne (by tauto)
theorem host0_keep (b : Ref sig .tc) (h : b ∉ written0) :
    StableHlo.after (hostOps0 (F := F)) X (Proc.devRef .tc b) = X (Proc.devRef .tc b) := (hosts_keep X b).1 h
theorem host1_keep (b : Ref sig .tc) (h : b ∉ written1) :
    StableHlo.after (hostOps1 (F := F)) X (Proc.devRef .tc b) = X (Proc.devRef .tc b) := (hosts_keep X b).2.1 h
theorem host2_keep (b : Ref sig .tc) (h : b ∉ written2) :
    StableHlo.after (hostOps2 (F := F)) X (Proc.devRef .tc b) = X (Proc.devRef .tc b) := (hosts_keep X b).2.2 h

end Cert.KernelIdeal.Hand

end
-- ==== Proof.KI.Fold.lean ====
import proofs.«425388_j31877247271269_3_alg».proof.Proof.KI.R0
import proofs.«425388_j31877247271269_3_alg».proof.Proof.KI.R1
import proofs.«425388_j31877247271269_3_alg».proof.Proof.KI.R2Defs
import proofs.«425388_j31877247271269_3_alg».proof.Proof.KI.HostVals

noncomputable section

namespace Cert.KernelIdeal.Hand

open Idealize.ShloMosaic Idealize.ShloMosaic.TcCoe Idealize.SL Idealize.SL.Sem Cert.KernelIdeal.Gen

variable {F : FTy → Type} [FloatOps F]

variable (m : (ℓ : Loc nD τ sig) → Buf (Elt F) ℓ) (ρ : Dev nD → PrngReg)

theorem ne_of_not_image {n : ℕ} {f : Fin n → Ref sig .tc} {b : Ref sig .tc} (hb : b ∉ Finset.univ.image f) (w : Fin n) : f w ≠ b :=
  fun e => hb (Finset.mem_image.mpr ⟨w, Finset.mem_univ _, e⟩)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After a region its arrays hold the proof data's final contents and every other buffer is as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the last region only its two result arrays differ from the contents at entry. -/
def W6 (c : Dev nD) : Valuation τ sig (Elt F) :=
  Function.update (Function.update (W5 m ρ c) main_v19_0 ((dat2 (V5 m ρ) c).arrAt 9 cfg2.N)) main_v19_1 ((dat2 (V5 m ρ) c).arrAt 10 cfg2.N)
abbrev V6 : (c : Dev nD) → (b : Ref sig .tc) → Buf (Elt F) ((c : Thread nD τ).loc b) := fun c b => W6 m ρ c b
theorem W6_v19_0 (c : Dev nD) : W6 m ρ c main_v19_0 = (dat2 (V5 m ρ) c).arrAt 9 cfg2.N := by
  unfold W6
  rw [Function.update_of_ne (StableHlo.devRef_ne_of_ne (by decide) : (Proc.devRef .tc main_v19_0 : DevRef τ sig) ≠ Proc.devRef .tc main_v19_1), Function.update_self]
theorem W6_v19_1 (c : Dev nD) : W6 m ρ c main_v19_1 = (dat2 (V5 m ρ) c).arrAt 10 cfg2.N := by
  unfold W6; rw [Function.update_self]
theorem W6_of_ne (c : Dev nD) (b : Ref sig .tc) (h0 : b ≠ main_v19_0) (h1 : b ≠ main_v19_1) :
    W6 m ρ c (Proc.devRef .tc b) = W5 m ρ c (Proc.devRef .tc b) := by
  unfold W6
  rw [Function.update_of_ne (StableHlo.devRef_ne_of_ne h1 : (Proc.devRef .tc b : DevRef τ sig) ≠ Proc.devRef .tc main_v19_1),
    Function.update_of_ne (StableHlo.devRef_ne_of_ne h0 : (Proc.devRef .tc b : DevRef τ sig) ≠ Proc.devRef .tc main_v19_0)]
theorem hF2 (c : Dev nD) (w : Fin cfg2.W) : (dat2 (V5 m ρ) c).arrAt w cfg2.N = V6 m ρ c (Pipeline.arrRef spec2 w) := by
  rcases (by decide : ∀ w : Fin cfg2.W, w = 9 ∨ w = 10 ∨ (cfg2.win w).isOut = false ∧ Pipeline.arrRef spec2 w ≠ main_v19_0 ∧ Pipeline.arrRef spec2 w ≠ main_v19_1) w
    with rfl | rfl | ⟨hw, h0, h1⟩
  · exact (W6_v19_0 m ρ c).symm
  · exact (W6_v19_1 m ρ c).symm
  · rw [(dat2 (V5 m ρ) c).arrAt_in w hw _, A_eq2]; exact (W6_of_ne m ρ c _ h0 h1).symm
theorem hrest2 (c : Dev nD) : ∀ b, b ∉ Finset.univ.image (Pipeline.arrRef spec2) → V6 m ρ c b = V5 m ρ c b :=
  fun b hb => W6_of_ne m ρ c b (ne_of_not_image hb 9).symm (ne_of_not_image hb 10).symm

/-- A buffer that no host operation and no region has written yet holds its launch contents: a region's input array stays. -/
theorem W2_keep (c : Dev nD) (b : Ref sig .tc) (h2 : (∀ w, Pipeline.arrRef spec0 w ≠ b) ∨ b = main_arg2) (h1 : b ∉ written0) :
    W2 m ρ c (Proc.devRef .tc b) = m ((c : Thread nD τ).loc b) := by
  refine Eq.trans ?_ (host0_keep (W0 m ρ c) b h1)
  rcases h2 with h2 | rfl
  · exact W2_of_ne m ρ c b h2
  · exact (W2_arr m ρ c 0).trans (((dat0 (V1 m ρ) c).arrAt_in 0 rfl _).trans (A_eq0 (V1 m ρ) c 0))
theorem W4_keep (c : Dev nD) (b : Ref sig .tc) (h4 : ∀ w, Pipeline.arrRef spec1 w ≠ b) (h3 : b ∉ written1)
    (h2 : (∀ w, Pipeline.arrRef spec0 w ≠ b) ∨ b = main_arg2) (h1 : b ∉ written0) :
    W4 m ρ c (Proc.devRef .tc b) = m ((c : Thread nD τ).loc b) :=
  (W4_of_ne m ρ c b h4).trans ((host1_keep (W2 m ρ c) b h3).trans (W2_keep m ρ c b h2 h1))
theorem W5_keep (c : Dev nD) (b : Ref sig .tc) (h5 : b ∉ written2) (h4 : ∀ w, Pipeline.arrRef spec1 w ≠ b) (h3 : b ∉ written1)
    (h2 : (∀ w, Pipeline.arrRef spec0 w ≠ b) ∨ b = main_arg2) (h1 : b ∉ written0) :
    W5 m ρ c (Proc.devRef .tc b) = m ((c : Thread nD τ).loc b) :=
  (host2_keep (W4 m ρ c) b h5).trans (W4_keep m ρ c b h4 h3 h2 h1)

end Cert.KernelIdeal.Hand

end
-- ==== Proof.KI.R2.lean ====
import proofs.«425388_j31877247271269_3_alg».proof.Proof.KI.R2Defs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
theorem sound_kernel2 (c : Dev nD) (E : Set ℕ) (i : grid2.Coords) {arg1 arg2 arg3 : Memref sig .tc .vmem S2048x256 .f32} {arg4 arg6 : Memref sig .tc .vmem S256x128 .f32}
    {arg5 arg7 : Memref sig .tc .vmem S1x128 .f32} {arg8 : Memref sig .tc .vmem S128x1 .f32} {arg9 : Memref sig .tc .vmem S1x1 .f32} {arg10 arg11 : Memref sig .tc .vmem S2048x1 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole)
    (x0 x1 x2 : Vec F S2048x256 .f32) (x3 : Vec F S256x128 .f32) (x4 : Vec F S1x128 .f32) (x5 : Vec F S256x128 .f32) (x6 : Vec F S1x128 .f32) (x7 : Vec F S128x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8) ∗ owns (c : Thread nD τ) arg11 fullShare (out2_10 x0 x1 x2 x3 x4 x5 x6 x7 x8)) -∗ K ⟨⟩))
      ⊢ wp frame (wpE (defs₀ (F := F)) Variants.none c none) E (cc2__predictor_kernel i arg1 harg1 arg2 harg2 arg3 harg3 arg4 harg4 arg5 harg5 arg6 harg6 arg7 harg7 arg8 harg8 arg9 harg9 arg10 harg10 arg11 harg11) K := by
  simp only [cc2__predictor_kernel_eq_skeleton]; unfold cc2__predictor_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover2 _)
  iexists _; isplitr
  swap; · iexact H10
  ipureintro
  try dsimp only
  exact View.read_writes_eq_canon _ _ _ (cover2 _)

-- The body leaves every input block as it was, so an input's buffer holds its block at every point.
theorem before2 (c : Dev nD) (t : Fin cfg2.N) (w : Fin cfg2.W) (hw : w.val < 9) (d) : (dat2 V c).before w t d = (dat2 V c).after w t := by
  fin_cases w <;> first
    | exact absurd hw (by decide)
    | exact (dat2 V c).before_in_eq_fetched _ rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  show _ ⊢ wp frame _ _ (bodyAt2 t) _
  simp (disch := decide) only [before2 V]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  iframe

-- A window's array is a whole buffer, held at the share the proof data gives the window.
theorem arr2 (c : Dev nD) (w : Fin cfg2.W) (G : Buf (Elt F) ((cfg2.win w).arr.view.loc (c : Thread nD τ))) :
    (((cfg2.win w).arr.view.loc (c : Thread nD τ)) ↦[(cfg2.win w).arr.view.set]{(dat2 V c).share w} G : sProp 𝕄)
      = (((c : Thread nD τ).loc (Pipeline.arrRef spec2 w)) ↦{(dat2 V c).q w} G) := by
  rw [(arr_whole2 w).set_eq_univ, show (dat2 V c).share w = (dat2 V c).q w by fin_cases w <;> rfl]

-- The nine distinct buffers behind the eleven windows' arrays.
theorem arrBufs2_eq (c : Dev nD) (W : (b : Ref sig .tc) → Buf (Elt F) ((c : Thread nD τ).loc b)) :
    (Pipeline.arrBufs spec2 c W : sProp 𝕄)
      = iprop((((c : Thread nD τ).loc main_v15) ↦{fullShare} W main_v15)
        ∗ (((c : Thread nD τ).loc main_arg10) ↦{fullShare} W main_arg10)
        ∗ (((c : Thread nD τ).loc main_v16) ↦{fullShare} W main_v16)
        ∗ (((c : Thread nD τ).loc main_arg12) ↦{fullShare} W main_arg12)
        ∗ (((c : Thread nD τ).loc main_v17) ↦{fullShare} W main_v17)
        ∗ (((c : Thread nD τ).loc main_arg14) ↦{fullShare} W main_arg14)
        ∗ (((c : Thread nD τ).loc main_v18) ↦{fullShare} W main_v18)
        ∗ (((c : Thread nD τ).loc main_v19_0) ↦{fullShare} W main_v19_0)
        ∗ (((c : Thread nD τ).loc main_v19_1) ↦{fullShare} W main_v19_1)) :=
  bigSep_eq_bigSepL_of_eq [main_v15, main_arg10, main_v16, main_arg12, main_v17, main_arg14, main_v18, main_v19_0, main_v19_1] (by decide) (by decide) _

-- Entry: the shared buffer's full share is cut in three, one part for each window that reads it.
theorem entry2 (c : Dev nD) :
    (unscopedBufs c (V c) : sProp 𝕄)
      ⊢ iprop((dat2 V c).arrays (fun w => (dat2 V c).arrAt w 0) ∗ Pipeline.unscopedRest spec2 c (V c)) := by
  rw [Pipeline.unscopedBufs_split₀ cfgs 2 winFacts₀2.arr_unscoped c (V c)]
  refine sep_mono ?_ .rfl
  show (Pipeline.arrBufs spec2 c (V c) : sProp 𝕄) ⊢ _
  rw [arrBufs2_eq]; unfold Dat.arrays; rw [bigSep_W2]
  iintro ⟨H15, H10, H16, H12, H17, H14, H18, H190, H191⟩
  ihave Hs := (pointsTo_share (PosShare.mem_left_op_right fullShare)).1 $$ H15
  icases Hs with ⟨Hl, Hr⟩
  ihave Hs := (pointsTo_share (PosShare.mem_left_op_right fullShare.right)).1 $$ Hr
  icases Hs with ⟨Hrl, Hrr⟩
  isplitl [Hl]; · rw [arr2 V c 0]; iexact Hl
  isplitl [Hrl]; · rw [arr2 V c 1]; iexact Hrl
  isplitl [Hrr]; · rw [arr2 V c 2]; iexact Hrr
  isplitl [H10]; · rw [arr2 V c 3]; iexact H10
  isplitl [H16]; · rw [arr2 V c 4]; iexact H16
  isplitl [H12]; · rw [arr2 V c 5]; iexact H12
  isplitl [H17]; · rw [arr2 V c 6]; iexact H17
  isplitl [H14]; · rw [arr2 V c 7]; iexact H14
  isplitl [H18]; · rw [arr2 V c 8]; iexact H18
  isplitl [H190]; · rw [arr2 V c 9]; iexact H190
  rw [arr2 V c 10]; iexact H191

theorem arrOut2 (V' : (c : Dev nD) → (b : Ref sig .tc) → Buf (Elt F) ((c : Thread nD τ).loc b)) (c : Dev nD) (w : Fin cfg2.W)
    (hF : (dat2 V c).arrAt w cfg2.N = V' c (Pipeline.arrRef spec2 w)) :
    (((cfg2.win w).arr.view.loc (c : Thread nD τ)) ↦[(cfg2.win w).arr.view.set]{(dat2 V c).share w} (dat2 V c).arrAt w cfg2.N : sProp 𝕄)
      ⊢ (((c : Thread nD τ).loc (Pipeline.arrRef spec2 w)) ↦{(dat2 V c).q w} V' c (Pipeline.arrRef spec2 w)) := by
  rw [arr2, hF]

-- Exit: no window writes the shared buffer, so the three parts hold the same contents and rejoin.
theorem exit2 (V' : (c : Dev nD) → (b : Ref sig .tc) → Buf (Elt F) ((c : Thread nD τ).loc b)) (c : Dev nD)
    (hF : ∀ w, (dat2 V c).arrAt w cfg2.N = V' c (Pipeline.arrRef spec2 w))
    (hrest : ∀ b, b ∉ Finset.univ.image (Pipeline.arrRef spec2) → V' c b = V c b) :
    iprop((dat2 V c).arrays (fun w => (dat2 V c).arrAt w cfg2.N) ∗ Pipeline.unscopedRest spec2 c (V c))
      ⊢ (unscopedBufs c (V' c) : sProp 𝕄) := by
  rw [Pipeline.unscopedBufs_split₀ cfgs 2 winFacts₀2.arr_unscoped c (V' c)]
  refine sep_mono ?_ (Entails.of_eq ?_)
  · show _ ⊢ (Pipeline.arrBufs spec2 c (V' c) : sProp 𝕄)
    rw [arrBufs2_eq]; unfold Dat.arrays; rw [bigSep_W2]
    iintro ⟨Hl, Hrl, Hrr, H10, H16, H12, H17, H14, H18, H190, H191⟩
    isplitl [Hl Hrl Hrr]
    · iapply (pointsTo_share (PosShare.mem_left_op_right fullShare)).2
      isplitl [Hl]; · iapply (arrOut2 V V' c 0 (hF 0)); iexact Hl
      iapply (pointsTo_share (PosShare.mem_left_op_right fullShare.right)).2
      isplitl [Hrl]; · iapply (arrOut2 V V' c 1 (hF 1)); iexact Hrl
      iapply (arrOut2 V V' c 2 (hF 2)); iexact Hrr
    isplitl [H10]; · iapply (arrOut2 V V' c 3 (hF 3)); iexact H10
    isplitl [H16]; · iapply (arrOut2 V V' c 4 (hF 4)); iexact H16
    isplitl [H12]; · iapply (arrOut2 V V' c 5 (hF 5)); iexact H12
    isplitl [H17]; · iapply (arrOut2 V V' c 6 (hF 6)); iexact H17
    isplitl [H14]; · iapply (arrOut2 V V' c 7 (hF 7)); iexact H14
    isplitl [H18]; · iapply (arrOut2 V V' c 8 (hF 8)); iexact H18
    isplitl [H190]; · iapply (arrOut2 V V' c 9 (hF 9)); iexact H190
    iapply (arrOut2 V V' c 10 (hF 10)); iexact H191
  · show Pipeline.unscopedRest spec2 c (V c) = Pipeline.unscopedRest spec2 c (V' c)
    unfold Pipeline.unscopedRest
    exact bigSep_congr fun b hb => by rw [hrest b (Finset.mem_sdiff.mp hb).2]

end Cert.KernelIdeal.Hand

end
-- ==== Proof.KI.Run.lean ====
import proofs.«425388_j31877247271269_3_alg».proof.Proof.KI.Fold
import proofs.«425388_j31877247271269_3_alg».proof.Proof.KI.R2
import proofs.«425388_j31877247271269_3_alg».proof.Proof.Gen.KernelIdeal.Regions

noncomputable section

namespace Cert.KernelIdeal.Hand

open Idealize.ShloMosaic Idealize.ShloMosaic.TcCoe Idealize.ShloMosaic.Tactic Idealize.ShloMosaic.Rounds
open Idealize.SL Idealize.SL.BI Idealize.SL.BI.BIBase Idealize.SL.BI.Laws Idealize.SL.ProofMode Idealize.SL.Sem Cert.KernelIdeal.Gen
open scoped Idealize.SL.BI
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev pinAt (F : FTy → Type) [FloatOps F] (p : Fin 3) := Pipeline.pin (pcfgs (F := F)) adm p
def pdats : (p : Fin 3) → (c : Dev nD) → Dat τ (Elt F) Unit ℕ (UR sig nD τ) ℕ (pinAt F p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

abbrev restAt (p : Fin 3) (Wi : Dev nD → Valuation τ sig (Elt F)) (c : Dev nD) : sProp 𝕄 :=
  Pipeline.unscopedRest (Ix := Unit) (Name := ℕ) (U := UR sig nD τ) (Lvl := ℕ) (pinAt F p).spec c (fun b => Wi c b)

set_option backward.isDefEq.respectTransparency.types false in
/-- A region between two valuations of the unscoped buffers: entry splits its arrays off them, exit joins them back. -/
def mkReg (p : Fin 3) (win : Pipeline.WinFacts₀ (pcfgs (F := F) p).spec)
    (block_pos : ∀ w : Fin (pinAt F p).W, 0 < ((pinAt F p).spec w).block.numel)
    (stage_whole : ∀ (w : Fin (pinAt F p).W) (s : Fin ((pinAt F p).spec w).nbuf), (((pinAt F p).spec w).stage s).IsWhole)
    (hbody : ∀ c, Pipeline.BodyObligationLoose (pdats m ρ p c) defs₀ 𝒱₀ () Set.univ)
    (howed : ∀ c t, (pdats m ρ p c).owed t = 0) (hrec : ∀ c x, x ∈ (pdats m ρ p c).recorded 0) (hK : IsEmpty (Fin (pcfgs (F := F) p).pre.K))
    (Wi Wo : Dev nD → Valuation τ sig (Elt F))
    (hsplit : ∀ c, (unscopedBufs c (fun b => Wi c b) : sProp 𝕄) ⊢ iprop((pdats m ρ p c).arrays ((pdats m ρ p c).arrAt · 0) ∗ restAt p Wi c))
    (hjoin : ∀ c, iprop((pdats m ρ p c).arrays ((pdats m ρ p c).arrAt · (pinAt F p).N) ∗ restAt p Wi c)
      ⊢ (unscopedBufs c (fun b => Wo c b) : sProp 𝕄))
    (hΦi : ∀ c, Pipeline.ΦA (pinAt F p).spec c ⊢ (pdats m ρ p c).Φ 0)
    (hΦo : ∀ c, (pdats m ρ p c).Φ (Fin.last _) ⊢ Pipeline.ΦA (pinAt F p).spec c) :
    Pipeline.RegionSeg (pcfgs (F := F)) adm (pdats m ρ) () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := restAt p Wi c
  hentry c := by
    have hs := hsplit c
    rw [Pipeline.unscopedBufs_held] at hs
    rw [Pipeline.ownSems0_none]; unfold Pipeline.Dat.owesAt Pipeline.owesWithin Pipeline.prefHeld
    rw [howed c, Finset.univ_eq_empty, BI.bigSep_empty]
    iintro ⟨⟨Hub, Hp, %W, HO⟩, -, -⟩
    ihave H := hs $$ Hub
    icases H with ⟨Ha, Hrest⟩
    imodintro
    isplitl [Ha]; · iexact Ha
    isplitr; · iempintro
    isplitl [HO]
    · iexists W; isplitr; · ipureintro; exact fun _ _ => Or.inl (hrec c _)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hj := hjoin c
    rw [Pipeline.unscopedBufs_held] at hj
    unfold Pipeline.Dat.owesAt Pipeline.owesWithin
    rw [howed c]
    iintro ⟨Ha, ⟨%W, -, HO⟩, HY, Hrest⟩
    imodintro
    isplitl [Ha Hrest]
    · iapply hj; isplitl [Ha] <;> iassumption
    isplitl [HY]; · iexact HY
    iexists W; iexact HO

set_option backward.isDefEq.respectTransparency.types false in
def reg0 : Pipeline.RegionSeg (pcfgs (F := F)) adm (pdats m ρ) () defs₀ 𝒱₀ L lv 0 :=
  mkReg m ρ 0 launch0.win.to₀ launch0.block_pos launch0.stage_whole (fun c => (body_obligation0 (V1 m ρ) c).loose) (fun _ _ => rfl) (fun _ _ => trivial)
    (inferInstanceAs (IsEmpty (Fin 0))) (W1 m ρ) (W2 m ρ)
    (fun c => Pipeline.arrays_of_unscopedBufs (p := 0) (pcfgs (F := F)) adm (pdats m ρ) launch0.win launch0.arr_whole c
      ((pdats m ρ 0 c).share_full fun _ => rfl) (V1 m ρ c) fun _ => rfl)
    (fun c => Pipeline.unscopedBufs_of_arrays (p := 0) (pcfgs (F := F)) adm launch0.win launch0.arr_whole c (pdats m ρ) ((pdats m ρ 0 c).share_full fun _ => rfl)
      (V1 m ρ c) (fun b => W2 m ρ c b) ((pdats m ρ 0 c).arrAt · cfg0.N) (fun w => (W2_arr m ρ c w).symm)
      fun b hb => W2_of_ne m ρ c b (ne_of_not_image hb))
    (fun _ => .rfl) (fun _ => .rfl)

set_option backward.isDefEq.respectTransparency.types false in
def reg1 : Pipeline.RegionSeg (pcfgs (F := F)) adm (pdats m ρ) () defs₀ 𝒱₀ L lv 1 :=
  mkReg m ρ 1 launch1.win.to₀ launch1.block_pos launch1.stage_whole (fun c => (body_obligation1 (V3 m ρ) c).loose) (fun _ _ => rfl) (fun _ _ => trivial)
    (inferInstanceAs (IsEmpty (Fin 0))) (W3 m ρ) (W4 m ρ)
    (fun c => Pipeline.arrays_of_unscopedBufs (p := 1) (pcfgs (F := F)) adm (pdats m ρ) launch1.win launch1.arr_whole c
      ((pdats m ρ 1 c).share_full fun _ => rfl) (V3 m ρ c) fun _ => rfl)
    (fun c => Pipeline.unscopedBufs_of_arrays (p := 1) (pcfgs (F := F)) adm launch1.win launch1.arr_whole c (pdats m ρ) ((pdats m ρ 1 c).share_full fun _ => rfl)
      (V3 m ρ c) (fun b => W4 m ρ c b) ((pdats m ρ 1 c).arrAt · cfg1.N) (fun w => (W4_arr m ρ c w).symm)
      fun b hb => W4_of_ne m ρ c b (ne_of_not_image hb))
    (hin1 (V3 m ρ)) (hout1 (V3 m ρ))

set_option backward.isDefEq.respectTransparency.types false in
def reg2 : Pipeline.RegionSeg (pcfgs (F := F)) adm (pdats m ρ) () defs₀ 𝒱₀ L lv 2 :=
  mkReg m ρ 2 winFacts₀2 block_pos2 stage_whole2 (fun c => (body_obligation2 (V5 m ρ) c).loose) (fun _ _ => rfl) (fun _ _ => trivial)
    (inferInstanceAs (IsEmpty (Fin 0))) (W5 m ρ) (W6 m ρ) (entry2 (V5 m ρ))
    (fun c => exit2 (V5 m ρ) (V6 m ρ) c (hF2 m ρ c) (hrest2 m ρ c)) (fun _ => .rfl) (fun _ => .rfl)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => hQ s h)

/-- A buffer that nothing writes ends as launched. -/
theorem kept (s : MemSt nD τ sig (Elt F))
    (h : ∀ c : Dev nD, ∀ b ∈ Pipeline.ucRefs τ sig, s.mem (((c : Thread nD τ)).1, b) = W6 m ρ c b) (c : Dev nD) (b : Ref sig .tc) :
    (¬ (Proc.devRef .tc b : DevRef τ sig).isScoped ∧ (b ≠ main_v19_0 ∧ b ≠ main_v19_1) ∧ b ∉ written2 ∧ (∀ w, Pipeline.arrRef spec1 w ≠ b)
      ∧ b ∉ written1 ∧ ((∀ w, Pipeline.arrRef spec0 w ≠ b) ∨ b = main_arg2) ∧ b ∉ written0) →
    s.mem ((c.tc : Thread nD τ).loc b) = m ((c.tc : Thread nD τ).loc b)
  | ⟨h0, h6, h5, h4, h3, h2, h1⟩ => (h c _ (mem_uc b h0)).trans ((W6_of_ne m ρ c b h6.1 h6.2).trans (W5_keep m ρ c b h5 h4 h3 h2 h1))

theorem args_kept (s : MemSt nD τ sig (Elt F))
    (h : ∀ c : Dev nD, ∀ b ∈ Pipeline.ucRefs τ sig, s.mem (((c : Thread nD τ)).1, b) = W6 m ρ c b) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15) := by
  refine ⟨?_, ?_, ?_, ?_, ?_, ?_, ?_, ?_, ?_, ?_, ?_, ?_, ?_, ?_, ?_, ?_⟩ <;> exact kept m ρ s h c _ (by decide)

end Cert.KernelIdeal.Hand

end
-- ==== Proof.RefSpec.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.Affine

noncomputable section

open scoped BigOperators

namespace Cert.RefSpec

open Idealize.ShloMosaic Idealize.ShloMosaic.ValueIdx

-- A position word, a negative one wrapped once round a table of 100000 rows.
def wrapWord (w : BitVec 32) : BitVec 32 :=
  Scalar.select (IntOp.cmpi .slt w 0#32) (IntOp.addi w 100000#32) w

-- The row of the table a position word reads: wrapped, read signed, clipped into the table.
def rowOf (w : BitVec 32) : Fin 100000 := ⟨min (wrapWord w).toInt.toNat 99999, by omega⟩

variable (src dst : IVec ⟨1, ![320000]⟩ 32) (ef : FVec Ideal ⟨2, ![320000, 128]⟩ .f32)
  (bt : FVec Ideal ⟨1, ![320000]⟩ .f32) (node_ts : FVec Ideal ⟨1, ![100000]⟩ .f32)
  (sidx oidx : IVec ⟨1, ![4096]⟩ 32) (tw tb : FVec Ideal ⟨1, ![128]⟩ .f32)
  (Wsrc : FVec Ideal ⟨2, ![256, 128]⟩ .f32) (bsrc : FVec Ideal ⟨1, ![128]⟩ .f32)
  (Wdst : FVec Ideal ⟨2, ![256, 128]⟩ .f32) (bdst : FVec Ideal ⟨1, ![128]⟩ .f32)
  (Wout : FVec Ideal ⟨2, ![128, 1]⟩ .f32) (bout : FVec Ideal ⟨1, ![1]⟩ .f32)
  (efeat : (⟨2, ![320000, 256]⟩ : Shape).Idx → EReal)

-- Feature k of edge e: the given feature for k < 128, else the cosine time encoding at k − 128.
def efeatAt (e : Fin 320000) (k : Fin 256) : EReal :=
  if h : k.val < 128 then ef (ix2 e (⟨k.val, h⟩ : Fin 128))
  else Ideal.cos ((bt (ix1 e) - node_ts (ix1 (rowOf (src (ix1 e))))) * tw (ix1 (⟨k.val - 128, by omega⟩ : Fin 128))
        + tb (ix1 (⟨k.val - 128, by omega⟩ : Fin 128)))

def refEfeat : (⟨2, ![320000, 256]⟩ : Shape).Idx → EReal :=
  fun i => efeatAt src ef bt node_ts tw tb ⟨(i 0).val, idx2_lt0 i⟩ ⟨(i 1).val, idx2_lt1 i⟩

theorem refEfeat_apply (e : Fin 320000) (k : Fin 256) :
    refEfeat src ef bt node_ts tw tb (ix2 e k) = efeatAt src ef bt node_ts tw tb e k := rfl

-- Entry (n, k) of the node embeddings: feature k summed over the edges whose destination word, read signed, is n.
def refH : (⟨2, ![100000, 256]⟩ : Shape).Idx → EReal :=
  fun i => ∑ e ∈ Finset.univ.filter (fun e : Fin 320000 => (dst (ix1 e)).toInt = ((i 0).val : ℤ)),
    efeat (ix2 e (⟨(i 1).val, idx2_lt1 i⟩ : Fin 256))

theorem refH_apply (n : Fin 100000) (k : Fin 256) :
    refH dst efeat (ix2 n k)
      = ∑ e ∈ Finset.univ.filter (fun e : Fin 320000 => (dst (ix1 e)).toInt = (n.val : ℤ)), efeat (ix2 e k) := rfl

-- Feature k summed over the edges whose destination word is the word w.
def segSum (w : BitVec 32) (k : Fin 256) : EReal :=
  ∑ e ∈ Finset.univ.filter (fun e : Fin 320000 => dst (ix1 e) = w), efeat (ix2 e k)

-- A word in the table's range is its own wrap and names its own row, so the two sums range over the same edges.
theorem refH_rowOf_of_range {w : BitVec 32} (h0 : 0 ≤ w.toInt) (h1 : w.toInt < 100000) (k : Fin 256) :
    refH dst efeat (ix2 (rowOf w) k) = segSum dst efeat w k := by
  have hw : wrapWord w = w := if_neg fun hc => by
    have := IntOp.cmpi_slt.1 hc
    rw [BitVec.toInt_zero] at this
    omega
  have hr : ((rowOf w).val : ℤ) = w.toInt := by
    show ((min (wrapWord w).toInt.toNat 99999 : ℕ) : ℤ) = w.toInt
    rw [hw]
    omega
  rw [refH_apply, hr]
  exact Finset.sum_congr (Finset.filter_congr fun e _ => BitVec.toInt_inj) fun _ _ => rfl

-- Output j of a linear layer on a row of 256 numbers.
def lin (W : FVec Ideal ⟨2, ![256, 128]⟩ .f32) (b : FVec Ideal ⟨1, ![128]⟩ .f32) (row : Fin 256 → EReal)
    (j : Fin 128) : EReal :=
  (∑ k : Fin 256, row k * W (ix2 k j)) + b (ix1 j)

-- The logit of two hidden vectors: their sum clipped below at zero, through the last layer.
def logit (a b : Fin 128 → EReal) : EReal :=
  (∑ j : Fin 128, max (a j + b j) 0 * Wout (ix2 j (0 : Fin 1))) + bout (ix1 (0 : Fin 1))

-- The reference's logit of query q against the words oidx.
def refLogit (q : Fin 4096) : EReal :=
  logit Wout bout
    (lin Wsrc bsrc fun k => refH dst (refEfeat src ef bt node_ts tw tb) (ix2 (rowOf (sidx (ix1 q))) k))
    (lin Wdst bdst fun k => refH dst (refEfeat src ef bt node_ts tw tb) (ix2 (rowOf (oidx (ix1 q))) k))

def refOut : (⟨2, ![4096, 1]⟩ : Shape).Idx → EReal :=
  fun i => refLogit src dst ef bt node_ts sidx oidx tw tb Wsrc bsrc Wdst bdst Wout bout ⟨(i 0).val, idx2_lt0 i⟩

theorem refLogit_of_range (q : Fin 4096)
    (hs : 0 ≤ (sidx (ix1 q)).toInt ∧ (sidx (ix1 q)).toInt < 100000)
    (ho : 0 ≤ (oidx (ix1 q)).toInt ∧ (oidx (ix1 q)).toInt < 100000) :
    refLogit src dst ef bt node_ts sidx oidx tw tb Wsrc bsrc Wdst bdst Wout bout q
      = logit Wout bout
          (lin Wsrc bsrc fun k => segSum dst (refEfeat src ef bt node_ts tw tb) (sidx (ix1 q)) k)
          (lin Wdst bdst fun k => segSum dst (refEfeat src ef bt node_ts tw tb) (oidx (ix1 q)) k) := by
  unfold refLogit
  simp only [refH_rowOf_of_range dst _ hs.1 hs.2, refH_rowOf_of_range dst _ ho.1 ho.2]

end Cert.RefSpec

end
-- ==== Proof.LibScatter.lean ====
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibScatter

open Idealize.ShloMosaic Idealize.ShloMosaic.ValueIdx

/-- An update lands on `i` exactly when, on every axis, its window start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h, Option.some.injEq, funext_iff]
    exact forall_congr' fun a => by rw [Fin.ext_iff]; have := h a; show Int.toNat _ = _ ↔ _; omega
  · rw [dif_neg h]
    exact ⟨fun e => (nomatch e), fun e => (h fun a => by have := e a; have := (i a).isLt; omega).elim⟩

variable {C D n : Nat} {φ : FTy} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1)
include h1 h2 h3 h4

/-- Row axis: the window starts at the edge's index word, read signed, one row high; column axis: at zero, at the update's column. -/
private theorem rows_axes (idx : IVec ⟨2, ![n, 1]⟩ 32) (j : (⟨2, ![n, D]⟩ : Shape).Idx) :
    d.start j idx 0 = (idx (ix2 (j 0) (0 : Fin 1))).toInt ∧ d.start j idx 1 = 0 ∧ d.window j 0 = 0
      ∧ d.window j 1 = (j 1).val := by
  obtain ⟨uw, iw, sd, iv, wf⟩ := d
  dsimp only at h1 h2 h3 h4
  subst h1 h2 h3 h4
  unfold ScatterDims.start ScatterDims.window
  refine ⟨?_, dif_neg (show (1 : Fin 2) ∉ ([0] : List (Fin 2)) by decide),
    dif_neg (show (0 : Fin 2) ∉ ([1] : List (Fin 2)) by decide),
    dif_pos (show (1 : Fin 2) ∈ ([1] : List (Fin 2)) by decide)⟩
  rw [dif_pos (show (0 : Fin 2) ∈ ([0] : List (Fin 2)) by decide)]
  exact congrArg (fun v => (idx v).toInt) (funext fun b => Fin.ext (by fin_cases b <;> rfl))

theorem scatterAdd_rows_read
    (x : (⟨2, ![C, D]⟩ : Shape).Idx → EReal) (idx : IVec ⟨2, ![n, 1]⟩ 32) (upd : (⟨2, ![n, D]⟩ : Shape).Idx → EReal)
    (c : Fin C) (k : Fin D) :
    Host.scatterAdd (F := Ideal) (φ := φ) d x idx upd (ix2 c k)
      = x (ix2 c k) + ∑ e ∈ Finset.univ.filter (fun e : Fin n => (idx (ix2 e (0 : Fin 1))).toInt = (c.val : ℤ)),
          upd (ix2 e k) := by
  have key : ∀ j : (⟨2, ![n, D]⟩ : Shape).Idx, j ∈ Finset.univ.filter (fun j => d.resultIdx? j idx = some (ix2 c k))
      ↔ ((idx (ix2 (j 0) (0 : Fin 1))).toInt = (c.val : ℤ) ∧ (j 1).val = k.val) := fun j => by
    obtain ⟨s0, s1, w0, w1⟩ := rows_axes d h1 h2 h3 h4 idx j
    rw [Finset.mem_filter, and_iff_right (Finset.mem_univ j), resultIdx?_eq_some_iff, Fin.forall_fin_two, s0, s1, w0, w1]
    show _ + ((0 : ℕ) : ℤ) = (c.val : ℤ) ∧ (0 : ℤ) + ((j 1).val : ℤ) = (k.val : ℤ) ↔ _
    omega
  have back : ∀ j ∈ Finset.univ.filter (fun j => d.resultIdx? j idx = some (ix2 c k)), ix2 (j 0 : Fin n) k = j :=
    fun j hj => funext fun a => match a with
      | ⟨0, _⟩ => rfl
      | ⟨1, _⟩ => Fin.ext ((key j).1 hj).2.symm
  show Ideal.hostScatterAdd d x idx upd (ix2 c k) = _
  refine congrArg (x (ix2 c k) + ·) (Finset.sum_nbij' (fun j => (j 0 : Fin n)) (fun e => ix2 e k)
    (fun j hj => Finset.mem_filter.2 ⟨Finset.mem_univ _, ((key j).1 hj).1⟩)
    (fun e he => (key (ix2 e k)).2 ⟨(Finset.mem_filter.1 he).2, rfl⟩) back (fun e _ => rfl)
    fun j hj => congrArg upd (back j hj).symm)

end Cert.LibScatter

end
-- ==== Proof.LibGatherRows.lean ====
import Idealize.ShloMosaic.PureOps.ShapeOps
import Idealize.ShloMosaic.PureOps.Dims
import Idealize.ShloMosaic.Lib.ValueIdx
import Idealize.ShloMosaic.Lib.StableHlo.Predicate
import Idealize.ShloMosaic.Lib.Pipeline.Value

noncomputable section

namespace Cert.LibGatherRows

open Idealize.ShloMosaic Idealize.ShloMosaic.ValueIdx

/-- The row coordinate is the start index, clipped, with nothing added; the column coordinate is the window's offset. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k)
      = x (ix2 (⟨min (idx (ix2 e (0 : Fin 1))).toInt.toNat (N - 1), by omega⟩ : Fin N) k) := by
  obtain ⟨od, cd, obd, sbd, sim, ivd, ss, wf⟩ := d
  simp only at hoff hcoll hob hsb hsim hivd
  subst hoff hcoll hob hsb hsim hivd
  generalize hd : (GatherDims.mk [1] [0] [] [] [0] 1 ss wf : GatherDims ⟨2, ![N, D]⟩ ⟨2, ![n, 1]⟩ ⟨2, ![n, D]⟩) = d
  have hb : ∀ a : Fin 2, a ∉ d.operandBatchingDims := fun a => by subst hd; exact List.not_mem_nil
  have hc : (0 : Fin 2) ∈ d.collapsedSliceDims := by subst hd; exact List.mem_singleton.2 rfl
  have hm : (0 : Fin 2) ∈ d.startIndexMap := by subst hd; exact List.mem_singleton.2 rfl
  have hm1 : (1 : Fin 2) ∉ d.startIndexMap := by subst hd; show (1 : Fin 2) ∉ ([0] : List (Fin 2)); decide
  have hk : (1 : Fin 2) ∈ d.sKept :=
    (GatherDims.mem_sKept _ _).2 ⟨by subst hd; show (1 : Fin 2) ∉ ([0] : List (Fin 2)); decide, hb 1⟩
  unfold Host.gather
  refine congrArg x (Shape.idx_ext₂ ?_ ?_)
  · show d.start (ix2 e k) idx (0 : Fin 2) + d.batchCoord (ix2 e k) (0 : Fin 2) + d.offCoord (ix2 e k) (0 : Fin 2) = _
    rw [GatherDims.batchCoord_eq_zero _ _ _ (hb 0),
      GatherDims.offCoord_eq_zero _ _ _ fun h => ((GatherDims.mem_sKept _ _).1 h).1 hc, Nat.add_zero]
    unfold GatherDims.start
    rw [dif_pos hm, d.slice_collapsed 0 hc]
    subst hd
    exact congrArg (fun v => min (idx v).toInt.toNat (N - 1)) (Shape.idx_ext₂ rfl rfl)
  · show d.start (ix2 e k) idx (1 : Fin 2) + d.batchCoord (ix2 e k) (1 : Fin 2) + d.offCoord (ix2 e k) (1 : Fin 2) = _
    rw [GatherDims.batchCoord_eq_zero _ _ _ (hb 1), Nat.add_zero]
    unfold GatherDims.start GatherDims.offCoord
    rw [dif_neg hm1, dif_pos hk, Nat.zero_add]
    subst hd
    rfl

/-- The library's read of a gathered vector, with its two index forms written by coordinates. -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e)
      = x (ix1 (⟨min (idx (ix2 e (0 : Fin 1))).toInt.toNat (N - 1), by omega⟩ : Fin N)) := by
  have h1 : (ix1 e : (⟨1, ![n]⟩ : Shape).Idx) = Shape.Idx.ofFin e := by
    funext a; match a with | ⟨0, _⟩ => rfl
  have h2 : (ix2 e (0 : Fin 1) : (⟨2, ![n, 1]⟩ : Shape).Idx) = StableHlo.Predicate.ixP e := by
    funext a; match a with | ⟨0, _⟩ => rfl | ⟨1, _⟩ => rfl
  have h3 : ∀ m : Fin N, (ix1 m : (⟨1, ![N]⟩ : Shape).Idx) = Shape.Idx.ofFin m := fun m => by
    funext a; match a with | ⟨0, _⟩ => rfl
  rw [h1, h3]
  refine (StableHlo.Predicate.gather_take d hcoll hob hsim hivd x idx e hN).trans ?_
  refine congrArg x (congrArg Shape.Idx.ofFin (Fin.ext ?_))
  show min (idx (StableHlo.Predicate.ixP e)).toInt.toNat (N - 1) = min (idx (ix2 e (0 : Fin 1))).toInt.toNat (N - 1)
  rw [h2]

end Cert.LibGatherRows

end
-- ==== Proof.RefVal.lean ====
import proofs.«425388_j31877247271269_3_alg».proof.Defs
import proofs.«425388_j31877247271269_3_alg».proof.Proof.Gen.ReferenceIdeal.Read
import proofs.«425388_j31877247271269_3_alg».proof.Proof.RefSpec
import proofs.«425388_j31877247271269_3_alg».proof.Proof.LibScatter
import proofs.«425388_j31877247271269_3_alg».proof.Proof.LibGatherRows

noncomputable section

open scoped BigOperators

namespace Cert.ReferenceIdeal.RefVal

open Cert.ReferenceIdeal Cert.ReferenceIdeal.Gen Cert.ReferenceIdeal.Read Cert.RefSpec
open Idealize.ShloMosaic Idealize.ShloMosaic.ValueIdx Idealize.ShloMosaic.TcCoe Idealize.SL.Sem

variable (x0 x1 : IVec S320000 32) (x2 : FVec Ideal S320000x128 .f32) (x3 : FVec Ideal S320000 .f32)
  (x4 : FVec Ideal S100000 .f32) (x5 x6 x7 : IVec S4096 32) (x8 x9 : FVec Ideal S128 .f32)
  (x10 : FVec Ideal S256x128 .f32) (x11 : FVec Ideal S128 .f32) (x12 : FVec Ideal S256x128 .f32)
  (x13 : FVec Ideal S128 .f32) (x14 : FVec Ideal S128x1 .f32) (x15 : FVec Ideal S1 .f32)

-- The gathered node time of edge e: node_ts at the row the wrapped source word reads.
theorem src_ts (e : Fin 320000) : val_main_v6 (F := Ideal) x0 x4 (ix1 e) = x4 (ix1 (rowOf (x0 (ix1 e)))) := by
  refine (Cert.LibGatherRows.gather_vec_apply gather_S100000_S320000x1_S320000_n_0_n_n_0_1_1 rfl rfl rfl rfl x4
    (val_main_v5 (F := Ideal) x0) e (by decide)).trans (congrArg x4 (congrArg ix1 (Fin.ext ?_)))
  show min (val_main_v5 (F := Ideal) x0 (ix2 e (0 : Fin 1))).toInt.toNat _ = _
  rw [val_main_v5_apply, show idx_main_v5 (ix2 e (0 : Fin 1)) = ix1 e from eq_ix1 _]
  rfl

-- The time encoding of edge e at column k: the cosine of (edge time − source node time) · frequency + phase.
theorem time_enc (e : Fin 320000) (k : Fin 128) :
    val_main_v16 (F := Ideal) x0 x3 x4 x8 x9 (ix2 e k)
      = Ideal.cos ((x3 (ix1 e) - x4 (ix1 (rowOf (x0 (ix1 e))))) * x8 (ix1 k) + x9 (ix1 k)) := by
  rw [val_main_v16_apply, val_main_v15_apply, val_main_v12_apply, val_main_v10_apply, val_main_v8_apply, val_main_v7_apply,
    val_main_v11_apply, val_main_v9_apply, val_main_v14_apply, val_main_v13_apply,
    show idx_main_v8 (idx_main_v10 (ix2 e k)) = ix1 e from eq_ix1 _,
    show idx_main_v9 (idx_main_v11 (ix2 e k)) = ix1 k from eq_ix1 _,
    show idx_main_v13 (idx_main_v14 (ix2 e k)) = ix1 k from eq_ix1 _, src_ts]
  rfl

-- The given features and the time encoding side by side: column k reads the one whose span holds k.
theorem efeat_eq : val_main_v17 (F := Ideal) x0 x2 x3 x4 x8 x9 = refEfeat x0 x2 x3 x4 x8 x9 := by
  funext i
  obtain ⟨e, k, rfl⟩ : ∃ (e : Fin 320000) (k : Fin 256), i = ix2 e k := ⟨i 0, i 1, eq_ix2 i⟩
  rw [refEfeat_apply]
  unfold efeatAt val_main_v17
  by_cases hk : k.val < 128
  · rw [dif_pos hk]
    exact concatenate_pair_apply_left (1 : Fin 2) x2 (val_main_v16 (F := Ideal) x0 x3 x4 x8 x9) concatenates_S320000x128_S320000x128_S320000x256_d1 (ix2 e k) rfl
      (ix2 e ⟨k.val, hk⟩) fun q => by match q with | ⟨0, _⟩ => rfl | ⟨1, _⟩ => rfl
  · rw [dif_neg hk]
    exact (concatenate_pair_apply_right (1 : Fin 2) x2 (val_main_v16 (F := Ideal) x0 x3 x4 x8 x9) concatenates_S320000x128_S320000x128_S320000x256_d1 (ix2 e k) rfl rfl
      (ix2 e ⟨k.val - 128, by omega⟩) (fun q hq => by match q, hq with | ⟨0, _⟩, _ => rfl | ⟨1, _⟩, hq => exact absurd rfl hq)
      (by show k.val - 128 + 128 = k.val; omega)).trans (time_enc x0 x3 x4 x8 x9 e _)

-- The scatter-add into the zero table: entry (n, k) sums column k over the edges whose destination word is n.
theorem emb_eq : val_main_v20 (F := Ideal) x0 x1 x2 x3 x4 x8 x9 = refH x1 (refEfeat x0 x2 x3 x4 x8 x9) := by
  funext i
  obtain ⟨n, k, rfl⟩ : ∃ (n : Fin 100000) (k : Fin 256), i = ix2 n k := ⟨i 0, i 1, eq_ix2 i⟩
  unfold val_main_v20
  rw [efeat_eq]
  refine (Cert.LibScatter.scatterAdd_rows_read (φ := .f32) scatter_S100000x256_S320000x1_S320000x256_1_0_0_1 rfl rfl rfl rfl
    (val_main_v18 (F := Ideal)) (val_main_v19 (F := Ideal) x1) (refEfeat x0 x2 x3 x4 x8 x9) n k).trans ?_
  have hz : (FloatOps.ofBits (F := Ideal) .f32 0x00000000#32 : EReal) = 0 := Ideal.ofBits_zero_f32
  rw [refH_apply, val_main_v18_apply, val_main_cst_apply, hz, zero_add]
  refine Finset.sum_congr (Finset.filter_congr fun e _ => ?_) fun _ _ => rfl
  rw [val_main_v19_apply, show idx_main_v19 (ix2 e (0 : Fin 1)) = ix1 e from eq_ix1 _]

-- The gathered row of query q: the table's row at the row the wrapped source word reads.
theorem s_emb (q : Fin 4096) (k : Fin 256) :
    val_main_v27 (F := Ideal) x0 x1 x2 x3 x4 x5 x8 x9 (ix2 q k)
      = refH x1 (refEfeat x0 x2 x3 x4 x8 x9) (ix2 (rowOf (x5 (ix1 q))) k) := by
  unfold val_main_v27
  rw [emb_eq]
  refine (Cert.LibGatherRows.gather_rows_apply gather_S100000x256_S4096x1_S4096x256_1_0_n_n_0_1_1256 rfl rfl rfl rfl rfl rfl
    _ (val_main_v26 (F := Ideal) x5) q k (by decide)).trans (congrArg _ (congrArg (ix2 · k) (Fin.ext ?_)))
  show min (val_main_v26 (F := Ideal) x5 (ix2 q (0 : Fin 1))).toInt.toNat _ = _
  rw [val_main_v26_apply, show idx_main_v26 (ix2 q (0 : Fin 1)) = ix1 q from eq_ix1 _]
  rfl

-- The hidden vector of query q at j: the linear layer on its gathered row.
theorem h_src (q : Fin 4096) (j : Fin 128) :
    val_main_v45 (F := Ideal) x0 x1 x2 x3 x4 x5 x8 x9 x10 x11 (ix2 q j)
      = lin x10 x11 (fun k => refH x1 (refEfeat x0 x2 x3 x4 x8 x9) (ix2 (rowOf (x5 (ix1 q))) k)) j := by
  rw [val_main_v45_apply, val_main_v42_apply, val_main_v44_apply, val_main_v43_apply,
    show idx_main_v43 (idx_main_v44 (ix2 q j)) = ix1 j from eq_ix1 _]
  simp only [show ∀ k, lidx_main_v42 (ix2 q j) k = ix2 q k from fun _ => eq_ix2 _,
    show ∀ k, ridx_main_v42 (ix2 q j) k = ix2 k j from fun _ => eq_ix2 _, s_emb]
  rfl

-- The positive and the negative branch are the source branch's operations on other arguments.
theorem h_pos (q : Fin 4096) (j : Fin 128) :
    val_main_v49 (F := Ideal) x0 x1 x2 x3 x4 x6 x8 x9 x12 x13 (ix2 q j)
      = lin x12 x13 (fun k => refH x1 (refEfeat x0 x2 x3 x4 x8 x9) (ix2 (rowOf (x6 (ix1 q))) k)) j :=
  h_src x0 x1 x2 x3 x4 x6 x8 x9 x12 x13 q j

-- The clipped sum of the source and positive hidden vectors of query q at j.
theorem act_pos (q : Fin 4096) (j : Fin 128) :
    val_main_v55 (F := Ideal) x0 x1 x2 x3 x4 x5 x6 x8 x9 x10 x11 x12 x13 (ix2 q j)
      = max (lin x10 x11 (fun k => refH x1 (refEfeat x0 x2 x3 x4 x8 x9) (ix2 (rowOf (x5 (ix1 q))) k)) j
          + lin x12 x13 (fun k => refH x1 (refEfeat x0 x2 x3 x4 x8 x9) (ix2 (rowOf (x6 (ix1 q))) k)) j) 0 := by
  have hz : (FloatOps.ofBits (F := Ideal) .f32 0x00000000#32 : EReal) = 0 := Ideal.ofBits_zero_f32
  rw [val_main_v55_apply, val_main_v54_apply, h_src, h_pos, val_main_call0_v0_apply, val_main_call0_cst_apply, hz]
  rfl

theorem eq_ix2_col (i : S4096x1.Idx) : i = ix2 (⟨(i 0).val, idx2_lt0 i⟩ : Fin 4096) (0 : Fin 1) := by
  funext a
  match a with
  | ⟨0, _⟩ => rfl
  | ⟨1, _⟩ => exact Fin.ext (by show (i 1).val = 0; have := idx2_lt1 i; omega)

-- The positive logits are the explicit array.
theorem ref_pos_eq : val_main_v59 (F := Ideal) x0 x1 x2 x3 x4 x5 x6 x8 x9 x10 x11 x12 x13 x14 x15
      = refOut x0 x1 x2 x3 x4 x5 x6 x8 x9 x10 x11 x12 x13 x14 x15 := by
  funext i
  obtain ⟨q, rfl⟩ : ∃ q : Fin 4096, i = ix2 q (0 : Fin 1) := ⟨_, eq_ix2_col i⟩
  rw [val_main_v59_apply, val_main_v56_apply, val_main_v58_apply, val_main_v57_apply,
    show idx_main_v57 (idx_main_v58 (ix2 q (0 : Fin 1))) = ix1 (0 : Fin 1) from eq_ix1 _]
  simp only [show ∀ j, lidx_main_v56 (ix2 q (0 : Fin 1)) j = ix2 q j from fun _ => eq_ix2 _,
    show ∀ j, ridx_main_v56 (ix2 q (0 : Fin 1)) j = ix2 j (0 : Fin 1) from fun _ => eq_ix2 _, act_pos]
  rfl

-- The negative logits are the positive branch's operations on the negative words.
theorem ref_neg_eq : val_main_v65 (F := Ideal) x0 x1 x2 x3 x4 x5 x7 x8 x9 x10 x11 x12 x13 x14 x15
      = refOut x0 x1 x2 x3 x4 x5 x7 x8 x9 x10 x11 x12 x13 x14 x15 :=
  ref_pos_eq x0 x1 x2 x3 x4 x5 x7 x8 x9 x10 x11 x12 x13 x14 x15

-- The reference runs to the end and leaves its arguments as they were.
theorem frame_ri [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

-- Every run of the reference ends with its two results at the explicit logits of its arguments' launch contents.
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v59) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v65) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
      ⟨(h c).1.trans ((val_main_v59_eq (F := Ideal) m c).trans (ref_pos_eq _ _ _ _ _ _ _ _ _ _ _ _ _ _ _)),
        (h c).2.1.trans ((val_main_v65_eq (F := Ideal) m c).trans (ref_neg_eq _ _ _ _ _ _ _ _ _ _ _ _ _ _ _)),
        (h c).2.2⟩)
    (Cert.ReferenceIdeal.Value.run (F := Ideal) m ρ)

end Cert.ReferenceIdeal.RefVal

end
-- ==== Proof.LibKeepdims.lean ====
import Idealize.ShloMosaic.Lib.Pipeline.Value
import Idealize.ShloMosaic.Lib.ValueIdx

namespace Idealize.ShloMosaic.ValueIdx

open Idealize.ShloMosaic

variable {α : Type}

/-- The unit axis is read at 0, the row axis at the row: for a > 1 as it stands, for a = 1 because then p = 0. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Val0.lean ====
import proofs.«425388_j31877247271269_3_alg».proof.Proof.KI.R0
import proofs.«425388_j31877247271269_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

section Spec

variable (ef : S320000x128.Idx → EReal) (td : S320000x1.Idx → EReal) (tw tb : S1x128.Idx → EReal)

/-- Entry `(e, k)` of the high part: feature `k` of edge `e` below column 128, then `cos (td e * tw (k - 128) + tb (k - 128))`. -/
def hiAt (e : Fin 320000) (k : Fin 256) : EReal :=
  if h : k.val < 128 then ef (ix2 e (⟨k.val, h⟩ : Fin 128))
  else Ideal.cos (td (ix2 e (0 : Fin 1)) * tw (ix2 (0 : Fin 1) (⟨k.val - 128, by omega⟩ : Fin 128))
        + tb (ix2 (0 : Fin 1) (⟨k.val - 128, by omega⟩ : Fin 128)))

def hiG : S320000x256.Idx → EReal :=
  fun i => hiAt ef td tw tb (i 0) (i 1)

/-- The low part: the high part minus itself, entry by entry. -/
def loG : S320000x256.Idx → EReal :=
  fun i => hiG ef td tw tb i - hiG ef td tw tb i

theorem hiG_ix2 (e : Fin 320000) (k : Fin 256) : hiG ef td tw tb (ix2 e k) = hiAt ef td tw tb e k := rfl

end Spec

/-- The concatenated row block at `(r, k)`: the left block below column 128, the cosine block from there on. -/
theorem rows_apply (x0 : Vec Ideal S6400x128 .f32) (x1 : Vec Ideal S6400x1 .f32) (x2 x3 : Vec Ideal S1x128 .f32)
    (r : Fin 6400) (k : Fin 256) :
    k0_pay1 x0 x1 x2 x3 (ix2 r k)
      = if h : k.val < 128 then x0 (ix2 r (⟨k.val, h⟩ : Fin 128))
        else Ideal.cos (x1 (ix2 r (0 : Fin 1)) * x2 (ix2 (0 : Fin 1) (⟨k.val - 128, by omega⟩ : Fin 128))
              + x3 (ix2 (0 : Fin 1) (⟨k.val - 128, by omega⟩ : Fin 128))) := by
  unfold k0_pay1
  split
  · rename_i h
    refine concatenate_pair_apply_left (t := S6400x256) (s₁ := S6400x128) (s₂ := S6400x128) (1 : Fin 2) x0 _
      concatenates_S6400x128_S6400x128_S6400x256_d1 (ix2 r k) rfl (ix2 r (⟨k.val, h⟩ : Fin 128)) fun b => ?_
    match b with
    | ⟨0, _⟩ => rfl
    | ⟨1, _⟩ => rfl
  · rename_i h
    refine (concatenate_pair_apply_right (t := S6400x256) (s₁ := S6400x128) (s₂ := S6400x128) (1 : Fin 2) x0 _
      concatenates_S6400x128_S6400x128_S6400x256_d1 (ix2 r k) rfl rfl (ix2 r (⟨k.val - 128, by omega⟩ : Fin 128))
      (fun b hb => ?_) ?_).trans ?_
    · match b with
      | ⟨0, _⟩ => rfl
      | ⟨1, _⟩ => exact absurd rfl hb
    · show k.val - 128 + 128 = k.val; omega
    · rw [shapeCast_self, shapeCast_self, shapeCast_self]
      show Ideal.cos (_ * _ + _) = _
      rw [broadcastTo_a1_ab_apply, broadcastTo_1b_ab_apply, broadcastTo_1b_ab_apply]

variable (V : (c : Dev nD) → (b : Ref sig .tc) → Buf (Elt Ideal) ((c : Thread nD τ).loc b))

theorem zeros2 : (![0, 0] : Fin 2 → Nat) = fun _ => 0 := funext fun a => by fin_cases a <;> rfl

theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 := Nat.lt_of_lt_of_eq t.isLt N_0

/-- Entry `(r, k)` of point `t`'s concatenated rows is entry `(6400 t + r, k)` of the high part. -/
theorem rows_at_point (c : Dev nD) (t : Fin cfg0.N) (r : Fin 6400) (k : Fin 256) :
    k0_pay1 (iblk0 V c 0 t) (iblk0 V c 1 t) (iblk0 V c 2 t) (iblk0 V c 3 t) (ix2 r k)
      = hiG (V c main_arg2) (V c main_v8) (V c main_v9) (V c main_v10)
          (ix2 (⟨t.val * 6400 + r.val, by have := point_lt t; omega⟩ : Fin 320000) k) := by
  obtain ⟨e00, e01, e10, e11, e20, e21, e30, e31, -, -, -, -⟩ := block_index t
  have ht := point_lt t
  have h0 : ∀ k : Fin 128, iblk0 V c 0 t (ix2 r k)
      = V c main_arg2 (ix2 (⟨t.val * 6400 + r.val, by omega⟩ : Fin 320000) k) := fun k =>
    congrArg (V c main_arg2) (Shape.idx_ext₂
      (by show win0_0.index t (0 : Fin 2) * 6400 + 1 * r.val = t.val * 6400 + r.val; omega)
      (by show win0_0.index t (1 : Fin 2) * 128 + 1 * k.val = k.val; omega))
  have h1 : iblk0 V c 1 t (ix2 r (0 : Fin 1))
      = V c main_v8 (ix2 (⟨t.val * 6400 + r.val, by omega⟩ : Fin 320000) (0 : Fin 1)) :=
    congrArg (V c main_v8) (Shape.idx_ext₂
      (by show win0_1.index t (0 : Fin 2) * 6400 + 1 * r.val = t.val * 6400 + r.val; omega)
      (by show win0_1.index t (1 : Fin 2) * 1 + 1 * 0 = 0; omega))
  have h2 : ∀ k : Fin 128, iblk0 V c 2 t (ix2 (0 : Fin 1) k) = V c main_v9 (ix2 (0 : Fin 1) k) := fun k =>
    congrArg (V c main_v9) (Shape.idx_ext₂ (by show win0_2.index t (0 : Fin 2) * 1 + 1 * 0 = 0; omega)
      (by show win0_2.index t (1 : Fin 2) * 128 + 1 * k.val = k.val; omega))
  have h3 : ∀ k : Fin 128, iblk0 V c 3 t (ix2 (0 : Fin 1) k) = V c main_v10 (ix2 (0 : Fin 1) k) := fun k =>
    congrArg (V c main_v10) (Shape.idx_ext₂ (by show win0_3.index t (0 : Fin 2) * 1 + 1 * 0 = 0; omega)
      (by show win0_3.index t (1 : Fin 2) * 128 + 1 * k.val = k.val; omega))
  refine (rows_apply _ _ _ _ r k).trans ?_
  rw [hiG_ix2]
  unfold hiAt
  split
  · exact h0 _
  · rw [h1, h2, h3]

/-- Entry `(r, k)` of point `t`'s block of the high part is entry `(6400 t + r, k)` of the array. -/
theorem hi_emb (t : Fin cfg0.N) (r : Fin 6400) (k : Fin 256) :
    ((cfg0.win 4).blk t).view.emb (ix2 r k)
      = ix2 (⟨t.val * 6400 + r.val, by have := point_lt t; omega⟩ : Fin 320000) k := by
  obtain ⟨-, -, -, -, -, -, -, -, e40, e41, -, -⟩ := block_index t
  exact Shape.idx_ext₂ (by show win0_4.index t (0 : Fin 2) * 6400 + 1 * r.val = t.val * 6400 + r.val; omega)
    (by show win0_4.index t (1 : Fin 2) * 256 + 1 * k.val = k.val; omega)

/-- The low part's blocks sit where the high part's do. -/
theorem lo_emb (t : Fin cfg0.N) (r : Fin 6400) (k : Fin 256) :
    ((cfg0.win 5).blk t).view.emb (ix2 r k)
      = ix2 (⟨t.val * 6400 + r.val, by have := point_lt t; omega⟩ : Fin 320000) k := by
  obtain ⟨-, -, -, -, -, -, -, -, -, -, e50, e51⟩ := block_index t
  exact Shape.idx_ext₂ (by show win0_5.index t (0 : Fin 2) * 6400 + 1 * r.val = t.val * 6400 + r.val; omega)
    (by show win0_5.index t (1 : Fin 2) * 256 + 1 * k.val = k.val; omega)

theorem hi_flushed (c : Dev nD) (t : Fin cfg0.N) :
    (dat0 (F := Ideal) V c).flushed 4 t
      = ((cfg0.win 4).blk t).view.read (Elt Ideal) (hiG (V c main_arg2) (V c main_v8) (V c main_v9) (V c main_v10)) := by
  show (cfg0.win 4).cut (grid0.coords t) ((dat0 V c).after 4 t) = _
  rw [after0_4]
  unfold out0_4
  rw [View.canon_unit_zero zeros2]
  simp only [View.ld_unit_zero (S := S6400x128) zeros2, View.ld_unit_zero (S := S6400x1) zeros2,
    View.ld_unit_zero (S := S1x128) zeros2]
  funext j
  obtain ⟨r, k, rfl⟩ : ∃ (r : Fin 6400) (k : Fin 256), j = ix2 r k := ⟨j 0, j 1, eq_ix2 j⟩
  exact (rows_at_point V c t r k).trans (congrArg (hiG _ _ _ _) (hi_emb t r k).symm)

theorem lo_flushed (c : Dev nD) (t : Fin cfg0.N) :
    (dat0 (F := Ideal) V c).flushed 5 t
      = ((cfg0.win 5).blk t).view.read (Elt Ideal) (loG (V c main_arg2) (V c main_v8) (V c main_v9) (V c main_v10)) := by
  show (cfg0.win 5).cut (grid0.coords t) ((dat0 V c).after 5 t) = _
  rw [after0_5]
  unfold out0_5
  rw [View.canon_unit_zero zeros2]
  simp only [View.ld_unit_zero (S := S6400x128) zeros2, View.ld_unit_zero (S := S6400x1) zeros2,
    View.ld_unit_zero (S := S1x128) zeros2]
  funext j
  obtain ⟨r, k, rfl⟩ : ∃ (r : Fin 6400) (k : Fin 256), j = ix2 r k := ⟨j 0, j 1, eq_ix2 j⟩
  show k0_pay1 (iblk0 V c 0 t) (iblk0 V c 1 t) (iblk0 V c 2 t) (iblk0 V c 3 t) (ix2 r k)
      - k0_pay1 (iblk0 V c 0 t) (iblk0 V c 1 t) (iblk0 V c 2 t) (iblk0 V c 3 t) (ix2 r k)
    = loG (V c main_arg2) (V c main_v8) (V c main_v9) (V c main_v10) (((cfg0.win 5).blk t).view.emb (ix2 r k))
  rw [rows_at_point V c t r k, lo_emb]
  rfl

/-- Row `i` lies in the block of point `i / 6400`, at position `i % 6400`: the fifty blocks fill the 320000 rows. -/
theorem hi_cover (i : S320000x256.Idx) :
    ∃ t : Fin cfg0.N, (cfg0.win 4).flush t = true ∧ i ∈ ((cfg0.win 4).blk t).view.set := by
  have hi0 : (i 0).val < 320000 := idx2_lt0 i
  have hq : (i 0).val / 6400 < cfg0.N := by rw [show cfg0.N = 50 from N_0]; omega
  have h : ((cfg0.win 4).blk ⟨_, hq⟩).view.emb
      (ix2 (⟨(i 0).val % 6400, by omega⟩ : Fin 6400) (⟨(i 1).val, idx2_lt1 i⟩ : Fin 256)) = i := by
    rw [hi_emb]; exact Shape.idx_ext₂ (Nat.div_add_mod' (i 0).val 6400) rfl
  exact ⟨⟨_, hq⟩, flush0_4 _, Eq.mp (congrArg (· ∈ _) h) (View.emb_mem_set _ _)⟩

theorem lo_cover (i : S320000x256.Idx) :
    ∃ t : Fin cfg0.N, (cfg0.win 5).flush t = true ∧ i ∈ ((cfg0.win 5).blk t).view.set := by
  have hi0 : (i 0).val < 320000 := idx2_lt0 i
  have hq : (i 0).val / 6400 < cfg0.N := by rw [show cfg0.N = 50 from N_0]; omega
  have h : ((cfg0.win 5).blk ⟨_, hq⟩).view.emb
      (ix2 (⟨(i 0).val % 6400, by omega⟩ : Fin 6400) (⟨(i 1).val, idx2_lt1 i⟩ : Fin 256)) = i := by
    rw [lo_emb]; exact Shape.idx_ext₂ (Nat.div_add_mod' (i 0).val 6400) rfl
  exact ⟨⟨_, hq⟩, flush0_5 _, Eq.mp (congrArg (· ∈ _) h) (View.emb_mem_set _ _)⟩

theorem val0_hi (c : Dev nD) :
    (dat0 (F := Ideal) V c).arrAt 4 cfg0.N = hiG (V c main_arg2) (V c main_v8) (V c main_v9) (V c main_v10) :=
  (dat0 (F := Ideal) V c).arrAt_eq_of_cover 4 (hiG (V c main_arg2) (V c main_v8) (V c main_v9) (V c main_v10))
    (fun t _ => hi_flushed V c t) hi_cover

theorem val0_lo (c : Dev nD) :
    (dat0 (F := Ideal) V c).arrAt 5 cfg0.N = loG (V c main_arg2) (V c main_v8) (V c main_v9) (V c main_v10) :=
  (dat0 (F := Ideal) V c).arrAt_eq_of_cover 5 (loG (V c main_arg2) (V c main_v8) (V c main_v9) (V c main_v10))
    (fun t _ => lo_flushed V c t) lo_cover

end Cert.KernelIdeal.Val

end
-- ==== Proof.Bridge0.lean ====
import proofs.«425388_j31877247271269_3_alg».proof.Proof.Val0
import proofs.«425388_j31877247271269_3_alg».proof.Proof.KI.HostVals
import proofs.«425388_j31877247271269_3_alg».proof.Proof.RefSpec
import proofs.«425388_j31877247271269_3_alg».proof.Proof.LibGatherRows

noncomputable section

namespace Cert.KernelIdeal.Val

open Idealize.ShloMosaic Idealize.ShloMosaic.TcCoe Idealize.ShloMosaic.ValueIdx
open Cert.KernelIdeal Cert.KernelIdeal.Gen Cert.KernelIdeal.Hand

/-- A vector laid out as a column reads, at `(i, u)`, the vector at `i`: both sit at row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

/-- The gathered timestamp is the node's whose row the source word, wrapped once, read signed and clipped, names. -/
theorem timeDiff_apply (src : IVec S320000 32) (bt : FVec Ideal S320000 .f32) (nodeTs : FVec Ideal S100000 .f32)
    (e : Fin 320000) :
    timeDiff src bt nodeTs (ix1 e) = bt (ix1 e) - nodeTs (ix1 (Cert.RefSpec.rowOf (src (ix1 e)))) := by
  have hw : srcWords src (ix2 e (0 : Fin 1)) = Cert.RefSpec.wrapWord (src (ix1 e)) := by
    unfold srcWords
    exact (broadcastInDim_apply ![0] bcast_S320000_S320000x1_0 _ (ix2 e (0 : Fin 1)) (ix1 e) fun a =>
      match a with | ⟨0, _⟩ => rfl).trans rfl
  show bt (ix1 e) - Host.gather gather_S100000_S320000x1_S320000_n_0_n_n_0_1_1 nodeTs (srcWords src) (ix1 e) = _
  rw [Cert.LibGatherRows.gather_vec_apply gather_S100000_S320000x1_S320000_n_0_n_n_0_1_1 rfl rfl rfl rfl nodeTs
    (srcWords src) e (by decide)]
  exact congrArg (fun r : Fin 100000 => bt (ix1 e) - nodeTs (ix1 r))
    (Fin.ext (congrArg (fun w : BitVec 32 => min w.toInt.toNat 99999) hw))

/-- Column by column: the first 128 are the edge features on both sides; the others are the cosine of the same real. -/
theorem hi_is_efeat (X : Valuation τ sig (Elt Ideal)) :
    hiG (StableHlo.after (hostOps0 (F := Ideal)) X (Proc.devRef .tc main_arg2))
        (StableHlo.after (hostOps0 (F := Ideal)) X (Proc.devRef .tc main_v8))
        (StableHlo.after (hostOps0 (F := Ideal)) X (Proc.devRef .tc main_v9))
        (StableHlo.after (hostOps0 (F := Ideal)) X (Proc.devRef .tc main_v10))
      = Cert.RefSpec.refEfeat (X (Proc.devRef .tc main_arg0)) (X (Proc.devRef .tc main_arg2)) (X (Proc.devRef .tc main_arg3))
          (X (Proc.devRef .tc main_arg4)) (X (Proc.devRef .tc main_arg8)) (X (Proc.devRef .tc main_arg9)) := by
  rw [host0_keep X main_arg2 (by decide), host0_v8 X, host0_v9 X, host0_v10 X]
  funext i
  obtain ⟨e, k, rfl⟩ : ∃ (e : Fin 320000) (k : Fin 256), i = ix2 e k := ⟨i 0, i 1, eq_ix2 i⟩
  rw [hiG_ix2, Cert.RefSpec.refEfeat_apply]
  unfold hiAt Cert.RefSpec.efeatAt
  split
  · rfl
  · rw [shapeCast_a_a1_apply, timeDiff_apply, shapeCast_a_1a_apply, shapeCast_a_1a_apply]

theorem lo_is_zero_diff (X : Valuation τ sig (Elt Ideal)) :
    loG (StableHlo.after (hostOps0 (F := Ideal)) X (Proc.devRef .tc main_arg2))
        (StableHlo.after (hostOps0 (F := Ideal)) X (Proc.devRef .tc main_v8))
        (StableHlo.after (hostOps0 (F := Ideal)) X (Proc.devRef .tc main_v9))
        (StableHlo.after (hostOps0 (F := Ideal)) X (Proc.devRef .tc main_v10))
      = fun i => Cert.RefSpec.refEfeat (X (Proc.devRef .tc main_arg0)) (X (Proc.devRef .tc main_arg2)) (X (Proc.devRef .tc main_arg3))
            (X (Proc.devRef .tc main_arg4)) (X (Proc.devRef .tc main_arg8)) (X (Proc.devRef .tc main_arg9)) i
          - Cert.RefSpec.refEfeat (X (Proc.devRef .tc main_arg0)) (X (Proc.devRef .tc main_arg2)) (X (Proc.devRef .tc main_arg3))
            (X (Proc.devRef .tc main_arg4)) (X (Proc.devRef .tc main_arg8)) (X (Proc.devRef .tc main_arg9)) i := by
  unfold loG
  rw [hi_is_efeat X]

end Cert.KernelIdeal.Val

end
-- ==== Proof.Chain1.lean ====
import proofs.«425388_j31877247271269_3_alg».proof.Proof.KI.Fold
import proofs.«425388_j31877247271269_3_alg».proof.Proof.Val0
import proofs.«425388_j31877247271269_3_alg».proof.Proof.Bridge0

noncomputable section

namespace Cert.KernelIdeal.Val

open Idealize.ShloMosaic Idealize.ShloMosaic.TcCoe Idealize.SL
open Cert.KernelIdeal Cert.KernelIdeal.Gen Cert.KernelIdeal.Hand

variable (m : (ℓ : Loc nD τ sig) → Buf (Elt Ideal) ℓ) (ρ : Dev nD → PrngReg) (c : Dev nD)

abbrev arg (b : Ref sig .tc) : Buf (Elt Ideal) ((c : Thread nD τ).loc b) := m ((c : Thread nD τ).loc b)

theorem V5_v15 : V5 m ρ c main_v15 = (dat1 (V3 m ρ) c).arrAt 4 cfg1.N := by
  dsimp only [V5, W5]
  rw [host2_keep _ main_v15 (by decide)]
  exact W4_arr m ρ c 4
theorem V5_arg10 : V5 m ρ c main_arg10 = arg m c main_arg10 :=
  W5_keep m ρ c main_arg10 (by decide) (by decide) (by decide) (Or.inl (by decide)) (by decide)
theorem V5_arg12 : V5 m ρ c main_arg12 = arg m c main_arg12 :=
  W5_keep m ρ c main_arg12 (by decide) (by decide) (by decide) (Or.inl (by decide)) (by decide)
theorem V5_arg14 : V5 m ρ c main_arg14 = arg m c main_arg14 :=
  W5_keep m ρ c main_arg14 (by decide) (by decide) (by decide) (Or.inl (by decide)) (by decide)
theorem V5_v16 : V5 m ρ c main_v16 = shapeCast S1x128 (arg m c main_arg11) shapeCasts_S128_S1x128 := by
  dsimp only [V5, W5]
  rw [host2_v16, W4_keep m ρ c main_arg11 (by decide) (by decide) (Or.inl (by decide)) (by decide)]
theorem V5_v17 : V5 m ρ c main_v17 = shapeCast S1x128 (arg m c main_arg13) shapeCasts_S128_S1x128 := by
  dsimp only [V5, W5]
  rw [host2_v17, W4_keep m ρ c main_arg13 (by decide) (by decide) (Or.inl (by decide)) (by decide)]
theorem V5_v18 : V5 m ρ c main_v18 = shapeCast S1x1 (arg m c main_arg15) shapeCasts_S1_S1x1 := by
  dsimp only [V5, W5]
  rw [host2_v18, W4_keep m ρ c main_arg15 (by decide) (by decide) (Or.inl (by decide)) (by decide)]

theorem V3_v13 : V3 m ρ c main_v13
    = shapeCast S12288x1 (concatenate S12288 0 [⟨S4096, arg m c main_arg5⟩, ⟨S4096, arg m c main_arg6⟩, ⟨S4096, arg m c main_arg7⟩] concatenates_S4096_S4096_S4096_S12288_d0) shapeCasts_S12288_S12288x1 := by
  dsimp only [V3, W3]
  rw [host1_v13, W2_keep m ρ c main_arg5 (Or.inl (by decide)) (by decide), W2_keep m ρ c main_arg6 (Or.inl (by decide)) (by decide),
    W2_keep m ρ c main_arg7 (Or.inl (by decide)) (by decide)]
theorem V3_v14 : V3 m ρ c main_v14 = shapeCast S1x320000 (arg m c main_arg1) shapeCasts_S320000_S1x320000 := by
  dsimp only [V3, W3]
  rw [host1_v14, W2_keep m ρ c main_arg1 (Or.inl (by decide)) (by decide)]

abbrev efeat : S320000x256.Idx → EReal :=
  Cert.RefSpec.refEfeat (arg m c main_arg0) (arg m c main_arg2) (arg m c main_arg3) (arg m c main_arg4) (arg m c main_arg8) (arg m c main_arg9)

theorem V3_v11_0 : V3 m ρ c main_v11_0 = efeat m c := by
  dsimp only [V3, W3]
  rw [host1_keep _ main_v11_0 (by decide)]
  exact (W2_arr m ρ c 4).trans ((val0_hi (V1 m ρ) c).trans (hi_is_efeat (W0 m ρ c)))
theorem V3_v11_1 : V3 m ρ c main_v11_1 = fun i => efeat m c i - efeat m c i := by
  dsimp only [V3, W3]
  rw [host1_keep _ main_v11_1 (by decide)]
  exact (W2_arr m ρ c 5).trans ((val0_lo (V1 m ρ) c).trans (lo_is_zero_diff (W0 m ρ c)))

end Cert.KernelIdeal.Val

end
-- ==== Proof.KI.R1Pieces.lean ====
import proofs.«425388_j31877247271269_3_alg».proof.Proof.KI.R1
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero_off : (![0, 0] : Fin 2 → Nat) = fun _ => 0 := funext fun a => by fin_cases a <;> rfl

variable (c : Dev nD) (i : grid1.Coords) (arg2 : Memref sig .tc .vmem S6144x1 .i32) (harg2 : arg2.IsWhole) (arg3 : Memref sig .tc .vmem S1x6400 .i32) (harg3 : arg3.IsWhole) (arg4 : Memref sig .tc .vmem S6400x256 .bf16) (harg4 : arg4.IsWhole) (arg5 : Memref sig .tc .vmem S6400x256 .bf16) (harg5 : arg5.IsWhole) (arg6 : Memref sig .tc .vmem S6144x256 .f32) (harg6 : arg6.IsWhole) (arg7 : Memref sig .tc .vmem S6144x256 .f32) (harg7 : arg7.IsWhole)

section
variable (hc0 : cond1_0 i) (hc1 : ¬cond1_1 i) (x0 : Vec F S6144x1 .i32) (x1 : Vec F S1x6400 .i32) (x2 : Vec F S6400x256 .bf16) (x3 : Vec F S6400x256 .bf16)
theorem sout1_A_eq : sout1_A_0 c i arg2 harg2 arg3 harg3 arg4 harg4 arg5 harg5 arg6 harg6 arg7 harg7 hc0 hc1 x0 x1 x2 x3 = k1_pay4 x0 x1 x3 (k1_pay3 x0 x1 x2 (k1_pay1 (F := F))) := by
  unfold sout1_A_0 kernelRun1_A
  dsimp only
  sl_unfold_words
  refine (View.canon_cons_unit_zero (S := S6144x256) zero_off _ _ _).trans ?_
  simp only [View.readCov_cons_toLoadRect, View.readAt_eq_ld, harg2.read_unread, harg3.read_unread, harg4.read_unread, harg5.read_unread,
    View.ld_unit_zero (S := S6144x1) zero_off, View.ld_unit_zero (S := S1x6400) zero_off, View.ld_unit_zero (S := S6400x256) zero_off]
end
section
variable (hc0 : ¬cond1_0 i) (hc1 : ¬cond1_1 i) (x0 : Vec F S6144x1 .i32) (x1 : Vec F S1x6400 .i32) (x2 : Vec F S6400x256 .bf16) (x3 : Vec F S6400x256 .bf16) (xs : Vec F S6144x256 .f32)
theorem sout1_B_eq : sout1_B_0 c i arg2 harg2 arg3 harg3 arg4 harg4 arg5 harg5 arg6 harg6 arg7 harg7 hc0 hc1 x0 x1 x2 x3 xs = k1_pay4 x0 x1 x3 (k1_pay3 x0 x1 x2 xs) := by
  unfold sout1_B_0 kernelRun1_B
  dsimp only
  sl_unfold_words
  refine (View.canon_cons_unit_zero (S := S6144x256) zero_off _ _ _).trans ?_
  simp only [View.readCov_cons_toLoadRect, View.readAt_eq_ld, harg2.read_unread, harg3.read_unread, harg4.read_unread, harg5.read_unread,
    View.ld_unit_zero (S := S6144x1) zero_off, View.ld_unit_zero (S := S1x6400) zero_off, View.ld_unit_zero (S := S6400x256) zero_off, harg7.read_unread, View.ld_unit_zero (S := S6144x256) zero_off]
end
section
variable (hc0 : ¬cond1_0 i) (hc1 : cond1_1 i) (x0 : Vec F S6144x1 .i32) (x1 : Vec F S1x6400 .i32) (x2 : Vec F S6400x256 .bf16) (x3 : Vec F S6400x256 .bf16) (xs : Vec F S6144x256 .f32)
theorem sout1_C_eq : sout1_C_0 c i arg2 harg2 arg3 harg3 arg4 harg4 arg5 harg5 arg6 harg6 arg7 harg7 hc0 hc1 x0 x1 x2 x3 xs = k1_pay4 x0 x1 x3 (k1_pay3 x0 x1 x2 xs) := by
  unfold sout1_C_0 kernelRun1_C
  dsimp only
  sl_unfold_words
  refine (View.canon_cons_unit_zero (S := S6144x256) zero_off _ _ _).trans ?_
  simp only [View.readCov_cons_toLoadRect, View.readAt_eq_ld, harg2.read_unread, harg3.read_unread, harg4.read_unread, harg5.read_unread,
    View.ld_unit_zero (S := S6144x1) zero_off, View.ld_unit_zero (S := S1x6400) zero_off, View.ld_unit_zero (S := S6400x256) zero_off, harg7.read_unread, View.ld_unit_zero (S := S6144x256) zero_off]

theorem out1_C_eq : out1_C_4 c i arg2 harg2 arg3 harg3 arg4 harg4 arg5 harg5 arg6 harg6 arg7 harg7 hc0 hc1 x0 x1 x2 x3 xs = k1_pay4 x0 x1 x3 (k1_pay3 x0 x1 x2 xs) := by
  unfold out1_C_4 kernelRun1_C
  dsimp only
  sl_unfold_words
  refine (View.canon_cons_unit_zero (S := S6144x256) zero_off _ _ _).trans ?_
  simp only [View.readCov_cons_toLoadRect, View.readAt_eq_ld, harg2.read_unread, harg3.read_unread, harg4.read_unread, harg5.read_unread,
    View.ld_unit_zero (S := S6144x1) zero_off, View.ld_unit_zero (S := S1x6400) zero_off, View.ld_unit_zero (S := S6400x256) zero_off, harg7.read_unread, View.ld_unit_zero (S := S6144x256) zero_off]
end

end Cert.KernelIdeal.Hand

end
-- ==== Proof.SumLib.lean ====
import Mathlib.Data.EReal.Operations
import Mathlib.Data.Fintype.BigOperators
import Mathlib.Logic.Equiv.Fin.Basic
import Mathlib.Algebra.BigOperators.Fin

noncomputable section

open scoped BigOperators

namespace Cert.SumLib

def maskE (a b : BitVec 32) : EReal := if a = b then 1 else 0

theorem tile_lt (t : Fin 50) (j : Fin 6400) : t.val * 6400 + j.val < 320000 := by omega

/-- The correction terms vanish where u is real; the fifty tiles of 6400 positions are all the indices; the indicator selects. -/
theorem gather_as_masked_sum (a : BitVec 32) (d : Fin 320000 → BitVec 32) (u : Fin 320000 → EReal)
    (hu : ∀ e, ∃ r : ℝ, u e = (r : EReal)) :
    (∑ t : Fin 50, ((∑ j : Fin 6400, maskE a (d ⟨t.val * 6400 + j.val, by omega⟩) * u ⟨t.val * 6400 + j.val, by omega⟩)
        + (∑ j : Fin 6400, maskE a (d ⟨t.val * 6400 + j.val, by omega⟩)
            * (u ⟨t.val * 6400 + j.val, by omega⟩ - u ⟨t.val * 6400 + j.val, by omega⟩))))
      = ∑ e ∈ Finset.univ.filter (fun e : Fin 320000 => d e = a), u e := by
  have hz : ∀ e, maskE a (d e) * (u e - u e) = 0 := fun e => by
    obtain ⟨r, hr⟩ := hu e
    rw [hr, ← EReal.coe_sub, sub_self, EReal.coe_zero, mul_zero]
  simp only [hz, Finset.sum_const_zero, add_zero]
  rw [Finset.sum_filter, ← Fintype.sum_prod_type']
  refine Fintype.sum_equiv (finProdFinEquiv (m := 50) (n := 6400)) _ (fun e => if d e = a then u e else 0) fun x => ?_
  rw [show (⟨x.1.val * 6400 + x.2.val, tile_lt x.1 x.2⟩ : Fin 320000) = finProdFinEquiv x from
    Fin.ext (by show x.1.val * 6400 + x.2.val = x.2.val + 6400 * x.1.val; omega)]
  unfold maskE
  by_cases h : a = d (finProdFinEquiv x)
  · rw [if_pos h, if_pos h.symm, one_mul]
  · rw [if_neg h, if_neg (Ne.symm h), zero_mul]

end Cert.SumLib

end
-- ==== Proof.LibDot.lean ====
import Idealize.ShloMosaic.Lib.StackMember

noncomputable section

open scoped BigOperators

namespace Cert.LibDot

open Idealize.ShloMosaic Idealize.ShloMosaic.ValueIdx

/-- These dimension numbers are the plain product's, whose entry is the sum over the shared coordinate. -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  obtain ⟨_, _, _, _, _, _, _⟩ := d
  subst hl hr hln hrn hlb hrb
  exact (congrFun (matmul_zero_eq_dotGeneral _ prec x w) _).trans (StackMember.dotGeneral_plain_apply prec x w r c)

end Cert.LibDot

end
-- ==== Proof.Val1Lib.lean ====
import proofs.«425388_j31877247271269_3_alg».proof.Proof.Gen.KernelIdeal.Skeleton
import proofs.«425388_j31877247271269_3_alg».proof.Proof.SumLib
import proofs.«425388_j31877247271269_3_alg».proof.Proof.LibDot
import proofs.«425388_j31877247271269_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val1Lib

open Idealize.ShloMosaic Idealize.ShloMosaic.ValueIdx
open Cert.KernelIdeal Cert.KernelIdeal.Gen
open Cert.SumLib (maskE)
open scoped BigOperators

/-- The equality test of two words, widened and read as a number, is the indicator of their equality. -/
theorem conv_mask (a b : BitVec 32) :
    FloatOps.sitofp (F := Ideal) .f32 ((IntOp.cmpi .eq a b).setWidth 32) = maskE a b := by
  show (((((BitVec.ofBool (a == b)).setWidth 32).toInt : ℤ) : ℝ) : EReal) = if a = b then 1 else 0
  by_cases h : a = b
  · rw [if_pos h, beq_iff_eq.mpr h]; exact (congrArg Real.toEReal Int.cast_one).trans EReal.coe_one
  · rw [if_neg h, beq_eq_false_iff_ne.mpr h]; exact (congrArg Real.toEReal Int.cast_zero).trans EReal.coe_zero

variable (x0 : Vec Ideal S6144x1 .i32) (x1 : Vec Ideal S1x6400 .i32) (x2 x3 : Vec Ideal S6400x256 .bf16)
  (xs : Vec Ideal S6144x256 .f32) (r : Fin 6144) (c : Fin 256)

theorem mask_apply (j : Fin 6400) :
    k1_pay2 (F := Ideal) x0 x1 (ix2 r j) = maskE (x0 (ix2 r (0 : Fin 1))) (x1 (ix2 (0 : Fin 1) j)) := by
  unfold k1_pay2
  show FloatOps.sitofp (F := Ideal) .f32 ((IntOp.cmpi .eq (broadcastTo _ (shapeCast _ x0 _) _ (ix2 r j))
    (broadcastTo _ (shapeCast _ x1 _) _ (ix2 r j))).setWidth 32) = _
  rw [shapeCast_self, shapeCast_self, Idealize.ShloMosaic.ValueIdx.broadcastTo_a1_ab_apply, broadcastTo_1b_ab_apply]
  exact conv_mask _ _

theorem zeros_apply (i : S6144x256.Idx) : (k1_pay1 (F := Ideal)) i = 0 := by
  unfold k1_pay1
  show shapeCast _ (broadcast _ (Ideal.ofBits .f32 0x00000000#32)) _ i = 0
  rw [shapeCast_self]
  exact Ideal.ofBits_zero_f32

/-- The mask times a block, added onto a running sum, at (r, c): the product is the plain sum over the 6400 shared positions. -/
theorem add_apply :
    k1_pay3 (F := Ideal) x0 x1 x2 xs (ix2 r c)
      = xs (ix2 r c) + ∑ k : Fin 6400, maskE (x0 (ix2 r (0 : Fin 1))) (x1 (ix2 (0 : Fin 1) k)) * x2 (ix2 k c) := by
  unfold k1_pay3
  show shapeCast _ (addf xs (FloatOps.matmul dot_S6144x6400_S6400x256_S6144x256_1_0_0_1_n_n none (k1_pay2 (F := Ideal) x0 x1)
    (shapeCast S6400x256 x2 shapeCasts_S6400x256_S6400x256) _)) _ (ix2 r c) = _
  rw [shapeCast_self, shapeCast_self]
  refine congrArg (xs (ix2 r c) + ·) ((Cert.LibDot.matmul_zero_at (φ₂ := .bf16) _ rfl rfl rfl rfl rfl rfl none _ x2 r c).trans ?_)
  exact Finset.sum_congr rfl fun k _ => congrArg (· * x2 (ix2 k c)) (mask_apply x0 x1 r k)

/-- One step at (r, c) adds both masked sums to the running sum. -/
theorem step_apply :
    k1_pay4 (F := Ideal) x0 x1 x3 (k1_pay3 (F := Ideal) x0 x1 x2 xs) (ix2 r c)
      = (xs (ix2 r c) + ∑ k : Fin 6400, maskE (x0 (ix2 r (0 : Fin 1))) (x1 (ix2 (0 : Fin 1) k)) * x2 (ix2 k c))
        + ∑ k : Fin 6400, maskE (x0 (ix2 r (0 : Fin 1))) (x1 (ix2 (0 : Fin 1) k)) * x3 (ix2 k c) :=
  (add_apply x0 x1 x3 _ r c).trans (congrArg (· + _) (add_apply x0 x1 x2 xs r c))

end Cert.KernelIdeal.Val1Lib

end
-- ==== Proof.Val1Spec.lean ====
import proofs.«425388_j31877247271269_3_alg».proof.Proof.SumLib
import Idealize.ShloMosaic.Lib.ValueIdx

noncomputable section

open scoped BigOperators

namespace Cert.KernelIdeal.Val

open Idealize.ShloMosaic Idealize.ShloMosaic.ValueIdx
open Cert.SumLib (maskE tile_lt)

variable (qall : (⟨2, ![12288, 1]⟩ : Shape).Idx → BitVec 32) (dstrow : (⟨2, ![1, 320000]⟩ : Shape).Idx → BitVec 32)
  (hi lo : (⟨2, ![320000, 256]⟩ : Shape).Idx → EReal)

/-- Tile t's share of entry (r, c): the indicator-weighted sum of hi over the tile plus that of lo. -/
def tileAt (r : Fin 12288) (c : Fin 256) (t : Fin 50) : EReal :=
  (∑ j : Fin 6400, maskE (qall (ix2 r (0 : Fin 1))) (dstrow (ix2 (0 : Fin 1) (⟨t.val * 6400 + j.val, tile_lt t j⟩ : Fin 320000)))
      * hi (ix2 (⟨t.val * 6400 + j.val, tile_lt t j⟩ : Fin 320000) c))
    + ∑ j : Fin 6400, maskE (qall (ix2 r (0 : Fin 1))) (dstrow (ix2 (0 : Fin 1) (⟨t.val * 6400 + j.val, tile_lt t j⟩ : Fin 320000)))
      * lo (ix2 (⟨t.val * 6400 + j.val, tile_lt t j⟩ : Fin 320000) c)

/-- Entry (r, c) of the result: the shares of the 50 tiles of 6400 positions, in one outer sum. -/
def hAt (r : Fin 12288) (c : Fin 256) : EReal := ∑ t : Fin 50, tileAt qall dstrow hi lo r c t

def hG : (⟨2, ![12288, 256]⟩ : Shape).Idx → EReal :=
  fun i => hAt qall dstrow hi lo (i 0) (i 1)

end Cert.KernelIdeal.Val

end
-- ==== Proof.Val1.lean ====
import proofs.«425388_j31877247271269_3_alg».proof.Proof.KI.R1Pieces
import proofs.«425388_j31877247271269_3_alg».proof.Proof.Val1Lib
import proofs.«425388_j31877247271269_3_alg».proof.Proof.Val1Spec

noncomputable section

open scoped BigOperators

namespace Cert.KernelIdeal.Val

open Idealize.ShloMosaic Idealize.ShloMosaic.TcCoe Idealize.ShloMosaic.ValueIdx Idealize.SL
open Cert.KernelIdeal Cert.KernelIdeal.Gen Cert.KernelIdeal.Hand
open Cert.SumLib (maskE tile_lt)

variable (V : (c : Dev nD) → (b : Ref sig .tc) → Buf (Elt Ideal) ((c : Thread nD τ).loc b)) (c : Dev nD)

abbrev qblk (t : Fin cfg1.N) : Vec Ideal S6144x1 .i32 := iblk1 V c 0 t
abbrev dblk (t : Fin cfg1.N) : Vec Ideal S1x6400 .i32 := iblk1 V c 1 t
abbrev hblk (t : Fin cfg1.N) : Vec Ideal S6400x256 .bf16 := iblk1 V c 2 t
abbrev lblk (t : Fin cfg1.N) : Vec Ideal S6400x256 .bf16 := iblk1 V c 3 t

/-- Point t = 50 q + e reads query block q, destination block e, block e of the first big array, and owns output block q. -/
theorem block_index1 : ∀ t : Fin cfg1.N,
    win1_0.index t (0 : Fin 2) = t.val / 50 ∧ win1_0.index t (1 : Fin 2) = 0
    ∧ win1_1.index t (0 : Fin 2) = 0 ∧ win1_1.index t (1 : Fin 2) = t.val % 50
    ∧ win1_2.index t (0 : Fin 2) = t.val % 50 ∧ win1_2.index t (1 : Fin 2) = 0
    ∧ win1_4.index t (0 : Fin 2) = t.val / 50 ∧ win1_4.index t (1 : Fin 2) = 0 :=
  (by decide +kernel : ∀ t : Fin grid1.N, _)

variable (t : Fin cfg1.N) (r : Fin 6144) (k : Fin 256) (j : Fin 6400) (R : Fin 12288) (E : Fin 320000)

theorem q_read (hR : R.val = t.val / 50 * 6144 + r.val) :
    qblk V c t (ix2 r (0 : Fin 1)) = V c main_v13 (ix2 R (0 : Fin 1)) := by
  obtain ⟨e00, e01, -⟩ := block_index1 t
  show V c main_v13 (((cfg1.win 0).blk t).view.emb (ix2 r (0 : Fin 1))) = _
  refine congrArg _ (funext fun a => Fin.ext ?_)
  match a with
  | ⟨0, _⟩ => show win1_0.index t (0 : Fin 2) * 6144 + 1 * r.val = R.val; omega
  | ⟨1, _⟩ => show win1_0.index t (1 : Fin 2) * 1 + 1 * 0 = 0; omega

theorem d_read (hE : E.val = t.val % 50 * 6400 + j.val) :
    dblk V c t (ix2 (0 : Fin 1) j) = V c main_v14 (ix2 (0 : Fin 1) E) := by
  obtain ⟨-, -, e10, e11, -⟩ := block_index1 t
  show V c main_v14 (((cfg1.win 1).blk t).view.emb (ix2 (0 : Fin 1) j)) = _
  refine congrArg _ (funext fun a => Fin.ext ?_)
  match a with
  | ⟨0, _⟩ => show win1_1.index t (0 : Fin 2) * 1 + 1 * 0 = 0; omega
  | ⟨1, _⟩ => show win1_1.index t (1 : Fin 2) * 6400 + 1 * j.val = E.val; omega

/-- Entry (j, k) of point t's block of either big array sits at (6400 (t % 50) + j, k) of the array. -/
theorem hl_emb (hE : E.val = t.val % 50 * 6400 + j.val) :
    (((cfg1.win 2).blk t).view.emb (ix2 j k) : S320000x256.Idx) = ix2 E k := by
  obtain ⟨-, -, -, -, e20, e21, -⟩ := block_index1 t
  funext a; apply Fin.ext
  match a with
  | ⟨0, _⟩ => show win1_2.index t (0 : Fin 2) * 6400 + 1 * j.val = E.val; omega
  | ⟨1, _⟩ => show win1_2.index t (1 : Fin 2) * 256 + 1 * k.val = k.val; omega

/-- What point t adds at an entry of its output block: the indicator-weighted sums of its two blocks. -/
def term (i : S6144x256.Idx) : EReal :=
  (∑ j : Fin 6400, maskE (qblk V c t (ix2 (i 0) (0 : Fin 1))) (dblk V c t (ix2 (0 : Fin 1) j)) * hblk V c t (ix2 j (i 1)))
    + ∑ j : Fin 6400, maskE (qblk V c t (ix2 (i 0) (0 : Fin 1))) (dblk V c t (ix2 (0 : Fin 1) j)) * lblk V c t (ix2 j (i 1))

/-- One step of point t on a running sum. -/
def step (acc : Vec Ideal S6144x256 .f32) : Vec Ideal S6144x256 .f32 :=
  k1_pay4 (qblk V c t) (dblk V c t) (lblk V c t) (k1_pay3 (qblk V c t) (dblk V c t) (hblk V c t) acc)

/-- Point n's term for every natural n: 0 past the grid, where it is never used. -/
def termN (n : ℕ) (i : S6144x256.Idx) : EReal := if h : n < cfg1.N then term V c ⟨n, h⟩ i else 0

theorem step_at (n : ℕ) (h : n < cfg1.N) (acc : Vec Ideal S6144x256 .f32) (i : S6144x256.Idx) :
    step V c ⟨n, h⟩ acc i = acc i + termN V c n i := by
  obtain ⟨r, k, rfl⟩ : ∃ (r : Fin 6144) (k : Fin 256), i = ix2 r k := ⟨i 0, i 1, eq_ix2 i⟩
  rw [termN, dif_pos h]
  exact (Val1Lib.step_apply _ _ _ _ acc r k).trans (add_assoc _ _ _)

/-- The first point of a run steps from the zero array, -/
theorem scr_first (h0 : t.val % 50 = 0) : (outsAt1 V c t.val t.isLt).2 = step V c t (k1_pay1 (F := Ideal)) := by
  rw [outsAt1_A V c t h0 (by omega)]
  dsimp only
  exact sout1_A_eq ..

/-- every other point from what the point before left. -/
theorem scr_next (h0 : ¬t.val % 50 = 0) :
    (outsAt1 V c t.val t.isLt).2 = step V c t (outsAt1 V c (t.val - 1) (pred_lt1 t)).2 := by
  by_cases h1 : t.val % 50 = 49
  · rw [outsAt1_C V c t h0 h1]; dsimp only; exact sout1_C_eq ..
  · rw [outsAt1_B V c t h0 h1]; dsimp only; exact sout1_B_eq ..

/-- The running sum after point t is the sum of the terms of the points of t's run up to t. -/
theorem sum_at (i : S6144x256.Idx) :
    (outsAt1 V c t.val t.isLt).2 i = ∑ s ∈ Finset.range (t.val % 50 + 1), termN V c (50 * (t.val / 50) + s) i := by
  have hb : 50 * (t.val / 50) + t.val % 50 < cfg1.N := (Nat.div_add_mod t.val 50).symm ▸ t.isLt
  rw [Pipeline.eq_accAt_of_mod (fun n h => (outsAt1 V c n h).2) 50 (fun n h => step V c ⟨n, h⟩ (k1_pay1 (F := Ideal)))
    (fun n h => step V c ⟨n, h⟩) (fun n h => scr_first V c ⟨n, h⟩) (fun n h => scr_next V c ⟨n + 1, h⟩) (by decide) t.val t.isLt hb]
  exact (Pipeline.accAt_add_apply (β := EReal) _ _ (k1_pay1 (F := Ideal)) (termN V c) _ 49 (fun h i => step_at V c _ h _ i)
    (fun n h acc i _ _ => step_at V c n h acc i) _ (by omega) hb i).trans (by rw [Val1Lib.zeros_apply, zero_add])

/-- At the last point of a run the output block receives what the running sum then holds. -/
theorem out_last (h1 : t.val % 50 = 49) : (outsAt1 V c t.val t.isLt).1 = (outsAt1 V c t.val t.isLt).2 := by
  rw [outsAt1_C V c t (by omega) h1]
  dsimp only
  exact (out1_C_eq ..).trans (sout1_C_eq ..).symm

/-- Point t = 50 q + e adds, at row r of its block, tile e's share of row 6144 q + r of the result. -/
theorem term_eq (e : Fin 50) (he : t.val % 50 = e.val) (hR : R.val = t.val / 50 * 6144 + r.val) :
    term V c t (ix2 r k) = tileAt (V c main_v13) (V c main_v14) (V c main_v11_0) (V c main_v11_1) R k e := by
  have hE : ∀ j : Fin 6400, (⟨e.val * 6400 + j.val, tile_lt e j⟩ : Fin 320000).val = t.val % 50 * 6400 + j.val :=
    fun j => congrArg (· * 6400 + j.val) he.symm
  unfold term tileAt
  refine congrArg₂ (· + ·) (Finset.sum_congr rfl fun j _ => ?_) (Finset.sum_congr rfl fun j _ => ?_)
  · exact congrArg₂ (· * ·) (congrArg₂ maskE (q_read V c t r R hR) (d_read V c t j _ (hE j))) (congrArg (V c main_v11_0) (hl_emb t k j _ (hE j)))
  · exact congrArg₂ (· * ·) (congrArg₂ maskE (q_read V c t r R hR) (d_read V c t j _ (hE j))) (congrArg (V c main_v11_1) (hl_emb t k j _ (hE j)))

/-- The last point of run q writes back block q of hG of the four arrays as the region found them. -/
theorem flushed1_eq (hf : (cfg1.win 4).flush t = true) :
    (dat1 (F := Ideal) V c).flushed 4 t
      = ((cfg1.win 4).blk t).view.read (Elt Ideal) (hG (V c main_v13) (V c main_v14) (V c main_v11_0) (V c main_v11_1)) := by
  have h49 : t.val % 50 = 49 := (flush1_4 t).mp hf
  have ht : t.val < 100 := Nat.lt_of_lt_of_eq t.isLt N_1
  obtain ⟨-, -, -, -, -, -, e40, e41⟩ := block_index1 t
  show (cfg1.win 4).cut (grid1.coords t) ((dat1 V c).after 4 t) = _
  rw [after1_4, out_last V c t h49]
  funext i
  obtain ⟨r, k, rfl⟩ : ∃ (r : Fin 6144) (k : Fin 256), i = ix2 r k := ⟨i 0, i 1, eq_ix2 i⟩
  have hr := r.isLt
  have hemb : (((cfg1.win 4).blk t).view.emb (ix2 r k) : S12288x256.Idx)
      = ix2 (⟨t.val / 50 * 6144 + r.val, by omega⟩ : Fin 12288) k := by
    funext a; apply Fin.ext
    match a with
    | ⟨0, _⟩ => show win1_4.index t (0 : Fin 2) * 6144 + 1 * r.val = t.val / 50 * 6144 + r.val; omega
    | ⟨1, _⟩ => show win1_4.index t (1 : Fin 2) * 256 + 1 * k.val = k.val; omega
  show (outsAt1 V c t.val t.isLt).2 (ix2 r k)
    = hG (V c main_v13) (V c main_v14) (V c main_v11_0) (V c main_v11_1) (((cfg1.win 4).blk t).view.emb (ix2 r k))
  rw [hemb, sum_at V c t (ix2 r k), h49]
  refine (Finset.sum_range _).trans (Finset.sum_congr (g := tileAt _ _ _ _ _ k) rfl fun e _ => ?_)
  have he := e.isLt
  have hlt : 50 * (t.val / 50) + e.val < cfg1.N := Nat.lt_of_lt_of_eq (by omega : 50 * (t.val / 50) + e.val < 100) N_1.symm
  rw [termN, dif_pos hlt]
  exact term_eq V c ⟨50 * (t.val / 50) + e.val, hlt⟩ r k _ e (by show (50 * (t.val / 50) + e.val) % 50 = e.val; omega)
    (by show t.val / 50 * 6144 + r.val = (50 * (t.val / 50) + e.val) / 50 * 6144 + r.val; omega)

/-- Row R lies in the block the last point of run R / 6144 writes back: the two blocks of 6144 rows fill the 12288 rows. -/
theorem out_cover (i : S12288x256.Idx) :
    ∃ t : Fin cfg1.N, (cfg1.win 4).flush t = true ∧ i ∈ ((cfg1.win 4).blk t).view.set := by
  have hi0 : (i 0).val < 12288 := idx2_lt0 i
  have hi1 : (i 1).val < 256 := idx2_lt1 i
  obtain ⟨t, ht⟩ : ∃ t : Fin cfg1.N, t.val = (i 0).val / 6144 * 50 + 49 :=
    ⟨⟨_, Nat.lt_of_lt_of_eq (by omega : (i 0).val / 6144 * 50 + 49 < 100) N_1.symm⟩, rfl⟩
  obtain ⟨-, -, -, -, -, -, e40, e41⟩ := block_index1 t
  refine ⟨t, (flush1_4 t).mpr (by omega), ?_⟩
  show i ∈ ((View.whole main_v15).slice (win1_4.rect t)).set
  rw [View.set_slice_whole, Rect.mem_set_unit]
  intro (a : Fin 2)
  match a with
  | ⟨0, _⟩ => show win1_4.index t (0 : Fin 2) * 6144 ≤ (i 0).val ∧ (i 0).val < win1_4.index t (0 : Fin 2) * 6144 + 6144; omega
  | ⟨1, _⟩ => show win1_4.index t (1 : Fin 2) * 256 ≤ (i 1).val ∧ (i 1).val < win1_4.index t (1 : Fin 2) * 256 + 256; omega

theorem val1 :
    (dat1 (F := Ideal) V c).arrAt 4 cfg1.N = hG (V c main_v13) (V c main_v14) (V c main_v11_0) (V c main_v11_1) :=
  (dat1 (F := Ideal) V c).arrAt_eq_of_cover 4 _ (flushed1_eq V c) out_cover

end Cert.KernelIdeal.Val

end
-- ==== Proof.Val2.lean ====
import proofs.«425388_j31877247271269_3_alg».proof.Proof.Val0
import proofs.«425388_j31877247271269_3_alg».proof.Proof.KI.R2Defs
import proofs.«425388_j31877247271269_3_alg».proof.Proof.RefSpec
import proofs.«425388_j31877247271269_3_alg».proof.Proof.LibDot

noncomputable section

open scoped BigOperators

namespace Cert.KernelIdeal.Val

open Idealize.ShloMosaic Idealize.ShloMosaic.TcCoe Idealize.ShloMosaic.ValueIdx
open Cert.KernelIdeal Cert.KernelIdeal.Gen Cert.KernelIdeal.Hand
open Cert.RefSpec (lin logit)

section

variable (hg : S12288x256.Idx → EReal) (Wsrc : S256x128.Idx → EReal) (bsrc : S1x128.Idx → EReal)
  (Wdst : S256x128.Idx → EReal) (bdst : S1x128.Idx → EReal) (Wout : S128x1.Idx → EReal) (bout : S1x1.Idx → EReal)

/-- The logit of embedding rows `a` (through the source's layer) and `b` (through the other's); a bias row `[1, n]` is read as a vector. -/
def pairLogit (a b : Fin 12288) : EReal :=
  logit Wout (fun u => bout (ix2 (0 : Fin 1) (u 0)))
    (lin Wsrc (fun u => bsrc (ix2 (0 : Fin 1) (u 0))) fun k => hg (ix2 a k))
    (lin Wdst (fun u => bdst (ix2 (0 : Fin 1) (u 0))) fun k => hg (ix2 b k))

/-- The column of logits in which query `q` pairs row `q` with row `o + q`. -/
def pairG (o : ℕ) (ho : o ≤ 8192) : S4096x1.Idx → EReal := fun i =>
  pairLogit hg Wsrc bsrc Wdst bdst Wout bout ⟨(i 0).val, by have := idx2_lt0 i; omega⟩ ⟨o + (i 0).val, by have := idx2_lt0 i; omega⟩

theorem pairG_ix2 (o : ℕ) (ho : o ≤ 8192) (q : Fin 4096) (u : Fin 1) :
    pairG hg Wsrc bsrc Wdst bdst Wout bout o ho (ix2 q u)
      = pairLogit hg Wsrc bsrc Wdst bdst Wout bout ⟨q.val, by omega⟩ ⟨o + q.val, by omega⟩ := rfl

/-- Entry `(r, j)` of a block of rows times a weight matrix plus the bias row is the linear layer's output `j` on row `r`. -/
theorem hidden_apply (x : Vec Ideal S2048x256 .f32) (W : Vec Ideal S256x128 .f32) (b : Vec Ideal S1x128 .f32)
    (r : Fin 2048) (j : Fin 128) :
    k2_pay3 x W b (ix2 r j) = lin W (fun u => b (ix2 (0 : Fin 1) (u 0))) (fun k => x (ix2 r k)) j := by
  unfold k2_pay3 Cert.RefSpec.lin
  rw [shapeCast_self, shapeCast_self]
  refine (congrArg (_ + ·) (broadcastTo_1b_ab_apply b _ r j)).trans ?_
  exact congrArg (· + b (ix2 (0 : Fin 1) j))
    (Cert.LibDot.matmul_zero_at dot_S2048x256_S256x128_S2048x128_1_0_0_1_n_n rfl rfl rfl rfl rfl rfl none x W r j)

/-- Row `r` of the predictor on two blocks holding rows `a`, `b` of the embedding array: the clipped sum of the two hidden vectors through the last layer. -/
theorem pair_rows (x0 x1 : Vec Ideal S2048x256 .f32) (a b : Fin 12288) (r : Fin 2048)
    (h0 : ∀ k : Fin 256, x0 (ix2 r k) = hg (ix2 a k)) (h1 : ∀ k : Fin 256, x1 (ix2 r k) = hg (ix2 b k)) :
    k2_pay2 (k2_pay3 x0 Wsrc bsrc) (k2_pay4 x1 Wdst bdst) Wout bout (ix2 r (0 : Fin 1))
      = pairLogit hg Wsrc bsrc Wdst bdst Wout bout a b := by
  unfold k2_pay2 pairLogit Cert.RefSpec.logit
  rw [shapeCast_self]
  refine (congrArg (_ + ·) (broadcastTo_1b_ab_apply bout _ r (0 : Fin 1))).trans (congrArg (· + bout (ix2 (0 : Fin 1) (0 : Fin 1)))
    ((Cert.LibDot.matmul_zero_at dot_S2048x128_S128x1_S2048x1_1_0_0_1_n_n rfl rfl rfl rfl rfl rfl none _ Wout r (0 : Fin 1)).trans
      (Finset.sum_congr rfl fun j _ => ?_)))
  show max (k2_pay3 x0 Wsrc bsrc (ix2 r j) + k2_pay3 x1 Wdst bdst (ix2 r j)) (Ideal.ofBits .f32 0x00000000#32) * Wout (ix2 j (0 : Fin 1)) = _
  rw [Ideal.ofBits_zero_f32, hidden_apply, hidden_apply]
  simp only [h0, h1]

end

variable (V : (c : Dev nD) → (b : Ref sig .tc) → Buf (Elt Ideal) ((c : Thread nD τ).loc b))

/-- The column of logits, second row at offset `o`, over the seven arrays `V` holds. -/
abbrev colAt (c : Dev nD) (o : ℕ) (ho : o ≤ 8192) : S4096x1.Idx → EReal :=
  pairG (V c main_v15) (V c main_arg10) (V c main_v16) (V c main_arg12) (V c main_v17) (V c main_arg14) (V c main_v18) o ho

theorem block_index2 : ∀ t : Fin cfg2.N,
    win2_0.index t (0 : Fin 2) = t.val ∧ win2_0.index t (1 : Fin 2) = 0
    ∧ win2_1.index t (0 : Fin 2) = 2 + t.val ∧ win2_1.index t (1 : Fin 2) = 0
    ∧ win2_2.index t (0 : Fin 2) = 4 + t.val ∧ win2_2.index t (1 : Fin 2) = 0
    ∧ win2_9.index t (0 : Fin 2) = t.val ∧ win2_9.index t (1 : Fin 2) = 0
    ∧ win2_10.index t (0 : Fin 2) = t.val ∧ win2_10.index t (1 : Fin 2) = 0
    ∧ (∀ a, win2_3.index t a = 0) ∧ (∀ a, win2_4.index t a = 0) ∧ (∀ a, win2_5.index t a = 0)
    ∧ (∀ a, win2_6.index t a = 0) ∧ (∀ a, win2_7.index t a = 0) ∧ (∀ a, win2_8.index t a = 0) :=
  (by decide +kernel : ∀ t : Fin grid2.N, _)

theorem point_lt2 (t : Fin cfg2.N) : t.val < 2 := Nat.lt_of_lt_of_eq t.isLt N_2

/-- A function composed with an index map that keeps every coordinate is the function itself. -/
theorem whole_read {s : Shape} {α : Type} (f : s.Idx → α) (e : s.Idx → s.Idx) (h : ∀ y a, (e y a : ℕ) = y a) :
    (fun y => f (e y)) = f :=
  funext fun y => congrArg f (funext fun a => Fin.ext (h y a))

theorem whole2 (c : Dev nD) (t : Fin cfg2.N) :
    (iblk2 V c 3 t : S256x128.Idx → EReal) = V c main_arg10 ∧ (iblk2 V c 4 t : S1x128.Idx → EReal) = V c main_v16
    ∧ (iblk2 V c 5 t : S256x128.Idx → EReal) = V c main_arg12 ∧ (iblk2 V c 6 t : S1x128.Idx → EReal) = V c main_v17
    ∧ (iblk2 V c 7 t : S128x1.Idx → EReal) = V c main_arg14 ∧ (iblk2 V c 8 t : S1x1.Idx → EReal) = V c main_v18 := by
  obtain ⟨-, -, -, -, -, -, -, -, -, -, z3, z4, z5, z6, z7, z8⟩ := block_index2 t
  exact ⟨whole_read _ ((cfg2.win 3).blk t).view.emb fun y a => win2_3.rect_emb_val_of_index_zero t a (z3 a) y,
    whole_read _ ((cfg2.win 4).blk t).view.emb fun y a => win2_4.rect_emb_val_of_index_zero t a (z4 a) y,
    whole_read _ ((cfg2.win 5).blk t).view.emb fun y a => win2_5.rect_emb_val_of_index_zero t a (z5 a) y,
    whole_read _ ((cfg2.win 6).blk t).view.emb fun y a => win2_6.rect_emb_val_of_index_zero t a (z6 a) y,
    whole_read _ ((cfg2.win 7).blk t).view.emb fun y a => win2_7.rect_emb_val_of_index_zero t a (z7 a) y,
    whole_read _ ((cfg2.win 8).blk t).view.emb fun y a => win2_8.rect_emb_val_of_index_zero t a (z8 a) y⟩

theorem rows2 (c : Dev nD) (t : Fin cfg2.N) (r : Fin 2048) (k : Fin 256) :
    iblk2 V c 0 t (ix2 r k) = V c main_v15 (ix2 (⟨t.val * 2048 + r.val, by have := point_lt2 t; omega⟩ : Fin 12288) k)
    ∧ iblk2 V c 1 t (ix2 r k) = V c main_v15 (ix2 (⟨4096 + (t.val * 2048 + r.val), by have := point_lt2 t; omega⟩ : Fin 12288) k)
    ∧ iblk2 V c 2 t (ix2 r k) = V c main_v15 (ix2 (⟨8192 + (t.val * 2048 + r.val), by have := point_lt2 t; omega⟩ : Fin 12288) k) := by
  obtain ⟨e00, e01, e10, e11, e20, e21, -⟩ := block_index2 t
  exact ⟨congrArg (V c main_v15) (Shape.idx_ext₂ (by show win2_0.index t (0 : Fin 2) * 2048 + 1 * r.val = t.val * 2048 + r.val; omega)
      (by show win2_0.index t (1 : Fin 2) * 256 + 1 * k.val = k.val; omega)),
    congrArg (V c main_v15) (Shape.idx_ext₂ (by show win2_1.index t (0 : Fin 2) * 2048 + 1 * r.val = 4096 + (t.val * 2048 + r.val); omega)
      (by show win2_1.index t (1 : Fin 2) * 256 + 1 * k.val = k.val; omega)),
    congrArg (V c main_v15) (Shape.idx_ext₂ (by show win2_2.index t (0 : Fin 2) * 2048 + 1 * r.val = 8192 + (t.val * 2048 + r.val); omega)
      (by show win2_2.index t (1 : Fin 2) * 256 + 1 * k.val = k.val; omega))⟩

/-- One statement for both outputs: only the row offset `o` of the second block differs. -/
theorem col_point (c : Dev nD) (t : Fin cfg2.N) (x1 : Vec Ideal S2048x256 .f32) (o : ℕ) (ho : o ≤ 8192) (r : Fin 2048)
    (h1 : ∀ k : Fin 256, x1 (ix2 r k) = V c main_v15 (ix2 (⟨o + (t.val * 2048 + r.val), by have := point_lt2 t; omega⟩ : Fin 12288) k))
    (i : S4096x1.Idx) (hi : (i 0).val = t.val * 2048 + r.val) :
    k2_pay2 (k2_pay3 (iblk2 V c 0 t) (iblk2 V c 3 t) (iblk2 V c 4 t)) (k2_pay4 x1 (iblk2 V c 5 t) (iblk2 V c 6 t))
        (iblk2 V c 7 t) (iblk2 V c 8 t) (ix2 r (0 : Fin 1)) = colAt V c o ho i := by
  obtain ⟨h3, h4, h5, h6, h7, h8⟩ := whole2 V c t
  have e : ix2 (⟨t.val * 2048 + r.val, by have := point_lt2 t; omega⟩ : Fin 4096) (0 : Fin 1) = i :=
    Shape.idx_ext₂ hi.symm (by show 0 = (i 1).val; have := idx2_lt1 i; omega)
  rw [← e, h3, h4, h5, h6, h7, h8]
  exact pair_rows _ _ _ _ _ _ _ _ _ _ _ r (fun k => (rows2 V c t r k).1) h1

theorem pos_flushed (c : Dev nD) (t : Fin cfg2.N) :
    (dat2 (F := Ideal) V c).flushed 9 t = ((cfg2.win 9).blk t).view.read (Elt Ideal) (colAt V c 4096 (by omega)) := by
  show (cfg2.win 9).cut (grid2.coords t) ((dat2 V c).after 9 t) = _
  rw [after2_9]
  unfold out2_9
  rw [View.canon_unit_zero zeros2]
  simp only [View.ld_unit_zero (S := S2048x256) zeros2, View.ld_unit_zero (S := S256x128) zeros2,
    View.ld_unit_zero (S := S1x128) zeros2, View.ld_unit_zero (S := S128x1) zeros2, View.ld_unit_zero (S := S1x1) zeros2]
  funext j
  obtain ⟨r, u, rfl⟩ : ∃ (r : Fin 2048) (u : Fin 1), j = ix2 r u := ⟨j 0, j 1, eq_ix2 j⟩
  obtain rfl : u = 0 := Subsingleton.elim _ _
  obtain ⟨-, -, -, -, -, -, e, -⟩ := block_index2 t
  refine col_point V c t (iblk2 V c 1 t) 4096 (by omega) r (fun k => (rows2 V c t r k).2.1) (((cfg2.win 9).blk t).view.emb (ix2 r (0 : Fin 1))) ?_
  show win2_9.index t (0 : Fin 2) * 2048 + 1 * r.val = _
  omega

theorem neg_flushed (c : Dev nD) (t : Fin cfg2.N) :
    (dat2 (F := Ideal) V c).flushed 10 t = ((cfg2.win 10).blk t).view.read (Elt Ideal) (colAt V c 8192 (by omega)) := by
  show (cfg2.win 10).cut (grid2.coords t) ((dat2 V c).after 10 t) = _
  rw [after2_10]
  unfold out2_10
  rw [View.canon_unit_zero zeros2]
  simp only [View.ld_unit_zero (S := S2048x256) zeros2, View.ld_unit_zero (S := S256x128) zeros2,
    View.ld_unit_zero (S := S1x128) zeros2, View.ld_unit_zero (S := S128x1) zeros2, View.ld_unit_zero (S := S1x1) zeros2]
  funext j
  obtain ⟨r, u, rfl⟩ : ∃ (r : Fin 2048) (u : Fin 1), j = ix2 r u := ⟨j 0, j 1, eq_ix2 j⟩
  obtain rfl : u = 0 := Subsingleton.elim _ _
  obtain ⟨-, -, -, -, -, -, -, -, e, -⟩ := block_index2 t
  refine col_point V c t (iblk2 V c 2 t) 8192 (by omega) r (fun k => (rows2 V c t r k).2.2) (((cfg2.win 10).blk t).view.emb (ix2 r (0 : Fin 1))) ?_
  show win2_10.index t (0 : Fin 2) * 2048 + 1 * r.val = _
  omega

theorem pos_cover (i : S4096x1.Idx) :
    ∃ t : Fin cfg2.N, (cfg2.win 9).flush t = true ∧ i ∈ ((cfg2.win 9).blk t).view.set := by
  have hi0 : (i 0).val < 4096 := idx2_lt0 i
  have hi1 : (i 1).val < 1 := idx2_lt1 i
  have hq : (i 0).val / 2048 < cfg2.N := by rw [show cfg2.N = 2 from N_2]; omega
  obtain ⟨-, -, -, -, -, -, e90, e91, eA0, eA1, -⟩ := block_index2 ⟨(i 0).val / 2048, hq⟩
  refine ⟨⟨(i 0).val / 2048, hq⟩, flush2_9 _, ?_⟩
  show i ∈ ((View.whole main_v19_0).slice (win2_9.rect ⟨(i 0).val / 2048, hq⟩)).set
  rw [View.set_slice_whole, Rect.mem_set_unit]
  intro a
  match a with
  | ⟨0, _⟩ =>
    show win2_9.index ⟨(i 0).val / 2048, hq⟩ (0 : Fin 2) * 2048 ≤ (i 0).val
      ∧ (i 0).val < win2_9.index ⟨(i 0).val / 2048, hq⟩ (0 : Fin 2) * 2048 + 2048
    rw [e90]; show (i 0).val / 2048 * 2048 ≤ (i 0).val ∧ (i 0).val < (i 0).val / 2048 * 2048 + 2048; omega
  | ⟨1, _⟩ =>
    show win2_9.index ⟨(i 0).val / 2048, hq⟩ (1 : Fin 2) * 1 ≤ (i 1).val
      ∧ (i 1).val < win2_9.index ⟨(i 0).val / 2048, hq⟩ (1 : Fin 2) * 1 + 1
    omega

theorem neg_cover : ∀ i : S4096x1.Idx, ∃ t : Fin cfg2.N, (cfg2.win 10).flush t = true ∧ i ∈ ((cfg2.win 10).blk t).view.set :=
  pos_cover

theorem val2_pos (c : Dev nD) : (dat2 (F := Ideal) V c).arrAt 9 cfg2.N = colAt V c 4096 (by omega) :=
  (dat2 (F := Ideal) V c).arrAt_eq_of_cover 9 _ (fun t _ => pos_flushed V c t) pos_cover

theorem val2_neg (c : Dev nD) : (dat2 (F := Ideal) V c).arrAt 10 cfg2.N = colAt V c 8192 (by omega) :=
  (dat2 (F := Ideal) V c).arrAt_eq_of_cover 10 _ (fun t _ => neg_flushed V c t) neg_cover

end Cert.KernelIdeal.Val

end
-- ==== Proof.Bridge1.lean ====
import proofs.«425388_j31877247271269_3_alg».proof.Proof.Gen.KernelIdeal
import proofs.«425388_j31877247271269_3_alg».proof.Proof.SumLib
import proofs.«425388_j31877247271269_3_alg».proof.Proof.RefSpec
import proofs.«425388_j31877247271269_3_alg».proof.Proof.Val1Spec
import Idealize.ShloMosaic.Lib.Pipeline.Value

noncomputable section

open scoped BigOperators

namespace Cert.KernelIdeal.Val

open Idealize.ShloMosaic Idealize.ShloMosaic.ValueIdx
open Cert.KernelIdeal Cert.KernelIdeal.Gen

theorem col_read (x : IVec S12288 32) (r : Fin 12288) :
    shapeCast S12288x1 x shapeCasts_S12288_S12288x1 (ix2 r (0 : Fin 1)) = x (ix1 r) := by
  refine shapeCast_apply x shapeCasts_S12288_S12288x1 (ix2 r (0 : Fin 1)) (ix1 r) ?_
  rw [Shape.rowMajor_val_one, Shape.rowMajor_val_two]
  show r.val = r.val * 1 + 0
  omega

theorem row_read (x : IVec S320000 32) (e : Fin 320000) :
    shapeCast S1x320000 x shapeCasts_S320000_S1x320000 (ix2 (0 : Fin 1) e) = x (ix1 e) := by
  refine shapeCast_apply x shapeCasts_S320000_S1x320000 (ix2 (0 : Fin 1) e) (ix1 e) ?_
  rw [Shape.rowMajor_val_one, Shape.rowMajor_val_two]
  show e.val = 0 * 320000 + e.val
  omega

variable (sidx pidx nidx : IVec S4096 32) (dst : IVec S320000 32) (efeat : S320000x256.Idx → EReal)
  (hreal : ∀ i, ∃ r : ℝ, efeat i = (r : EReal)) (q : Fin 4096) (k : Fin 256)

/-- Three vectors of 4096 words laid end to end as a column: row 4096 w + q reads word q of vector w. -/
theorem qall_at (w : Fin 3) (R : Fin 12288) (hR : w.val * 4096 + q.val = R.val) :
    shapeCast S12288x1 (concatenate S12288 0 [⟨S4096, sidx⟩, ⟨S4096, pidx⟩, ⟨S4096, nidx⟩] concatenates_S4096_S4096_S4096_S12288_d0) shapeCasts_S12288_S12288x1 (ix2 R (0 : Fin 1))
      = ![sidx, pidx, nidx] w (ix1 q) := by
  refine (col_read _ R).trans ?_
  refine concatenate_apply_piece (t := S12288) (0 : Fin 1) [⟨S4096, sidx⟩, ⟨S4096, pidx⟩, ⟨S4096, nidx⟩] concatenates_S4096_S4096_S4096_S12288_d0 _ w.val w.isLt S4096 _ ?_ rfl
    (w.val * 4096) ?_ (ix1 q) (fun b hb => absurd (Fin.ext (Nat.lt_one_iff.mp b.isLt)) hb) hR <;> fin_cases w <;> rfl

include hreal

/-- With the features as high halves and their vanishing differences as low halves, entry (r, k) of the region's
    result is feature k summed over the edges whose destination word is the query word of row r. -/
theorem hAt_eq_segSum (qall : S12288x1.Idx → BitVec 32) (dstrow : S1x320000.Idx → BitVec 32) (r : Fin 12288)
    (a : BitVec 32) (hq : qall (ix2 r (0 : Fin 1)) = a) (hd : ∀ e : Fin 320000, dstrow (ix2 (0 : Fin 1) e) = dst (ix1 e)) :
    hG qall dstrow efeat (fun i => efeat i - efeat i) (ix2 r k) = Cert.RefSpec.segSum dst efeat a k := by
  show hAt qall dstrow efeat _ r k = _
  unfold hAt tileAt Cert.RefSpec.segSum
  simp only [hq, hd]
  exact Cert.SumLib.gather_as_masked_sum a (fun e => dst (ix1 e)) (fun e => efeat (ix2 e k)) (fun e => hreal _)

theorem hG_src :
    hG (shapeCast S12288x1 (concatenate S12288 0 [⟨S4096, sidx⟩, ⟨S4096, pidx⟩, ⟨S4096, nidx⟩] concatenates_S4096_S4096_S4096_S12288_d0) shapeCasts_S12288_S12288x1) (shapeCast S1x320000 dst shapeCasts_S320000_S1x320000) efeat (fun i => efeat i - efeat i) (ix2 (⟨q.val, by omega⟩ : Fin 12288) k)
      = Cert.RefSpec.segSum dst efeat (sidx (ix1 q)) k :=
  hAt_eq_segSum dst efeat hreal k _ _ _ _ (qall_at sidx pidx nidx q 0 ⟨q.val, by omega⟩ (Nat.zero_add _)) (row_read dst)

theorem hG_pos :
    hG (shapeCast S12288x1 (concatenate S12288 0 [⟨S4096, sidx⟩, ⟨S4096, pidx⟩, ⟨S4096, nidx⟩] concatenates_S4096_S4096_S4096_S12288_d0) shapeCasts_S12288_S12288x1) (shapeCast S1x320000 dst shapeCasts_S320000_S1x320000) efeat (fun i => efeat i - efeat i) (ix2 (⟨4096 + q.val, by omega⟩ : Fin 12288) k)
      = Cert.RefSpec.segSum dst efeat (pidx (ix1 q)) k :=
  hAt_eq_segSum dst efeat hreal k _ _ _ _ (qall_at sidx pidx nidx q 1 ⟨4096 + q.val, by omega⟩ rfl) (row_read dst)

theorem hG_neg :
    hG (shapeCast S12288x1 (concatenate S12288 0 [⟨S4096, sidx⟩, ⟨S4096, pidx⟩, ⟨S4096, nidx⟩] concatenates_S4096_S4096_S4096_S12288_d0) shapeCasts_S12288_S12288x1) (shapeCast S1x320000 dst shapeCasts_S320000_S1x320000) efeat (fun i => efeat i - efeat i) (ix2 (⟨8192 + q.val, by omega⟩ : Fin 12288) k)
      = Cert.RefSpec.segSum dst efeat (nidx (ix1 q)) k :=
  hAt_eq_segSum dst efeat hreal k _ _ _ _ (qall_at sidx pidx nidx q 2 ⟨8192 + q.val, by omega⟩ rfl) (row_read dst)

end Cert.KernelIdeal.Val

end
-- ==== Proof.PreFacts.lean ====
import proofs.«425388_j31877247271269_3_alg».proof.Pre_finite_inputs
import proofs.«425388_j31877247271269_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Cert.Pre_finite_inputs

variable [Facts]

local instance : Subsingleton S_.Idx := ⟨fun _ _ => funext fun d => d.elim0⟩

abbrev AllReal {s : Shape} (x : FVec Ideal s .f32) : Prop := ∀ i : s.Idx, ∃ r : ℝ, x i = (r : EReal)

abbrev InRange (a : IVec S4096 32) : Prop := ∀ q : S4096.Idx, 0 ≤ (a q).toInt ∧ (a q).toInt < 100000

-- Of the extended reals only the two infinities fail max x (−x) < +∞.
theorem real_of_abs_lt_top (x : Ideal .f32)
    (e : FloatOps.cmpf .olt (FloatOps.hostAbsf x) (FloatOps.ofBits (F := Ideal) .f32 0x7F800000#32) = 1#1) :
    ∃ r : ℝ, x = (r : EReal) := by
  induction x using EReal.rec with
  | coe r => exact ⟨r, rfl⟩
  | bot | top =>
    exact absurd e (by simp [FloatOps.cmpf, FloatOps.hostAbsf, FloatOps.ofBits, Ideal.cmp, Ideal.ofBits, Ideal.ieee])

-- all(|x| < +∞) = 1 says so at every index.
theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ValueIdx.ix0 = 1#1) : AllReal x := fun i =>
  real_of_abs_lt_top (x i) (Host.reduce_andi_all _ _ hr h0 _ e i)

-- all((a ≥ 0) ∧ (a < 100000)) = 1, both compared signed, says so of every word read signed.
theorem all_range (a : IVec S4096 32) (hb : S_.BroadcastsInDim S4096 (![] : Fin 0 → Fin S4096.rank))
    (hr : S4096.ReducesTo [0] S_) (h0 : 0 < S_.numel)
    (e : Host.reduce IntOp.andi
          (andi (cmpi .sge a (broadcastInDim S4096 ![] hb (constantI S_ 32 0#32)))
                (cmpi .slt a (broadcastInDim S4096 ![] hb (constantI S_ 32 100000#32))))
          (constantI S_ 1 1#1) hr h0 ValueIdx.ix0 = 1#1) : InRange a := fun q =>
  (IntOp.andi_eq_one.1 (Host.reduce_andi_all _ _ hr h0 _ e q)).imp IntOp.cmpi_sge.1 IntOp.cmpi_slt.1

variable {a0 a1 : IVec S320000 32} {a2 : FVec Ideal S320000x128 .f32} {a3 : FVec Ideal S320000 .f32}
  {a4 : FVec Ideal S100000 .f32} {a5 a6 a7 : IVec S4096 32} {a8 a9 : FVec Ideal S128 .f32}
  {a10 : FVec Ideal S256x128 .f32} {a11 : FVec Ideal S128 .f32} {a12 : FVec Ideal S256x128 .f32}
  {a13 : FVec Ideal S128 .f32} {a14 : FVec Ideal S128x1 .f32} {a15 : FVec Ideal S1 .f32}
  (h : fn (F := Ideal) a0 a1 a2 a3 a4 a5 a6 a7 a8 a9 a10 a11 a12 a13 a14 a15 = fun _ => 1#1)
include h

-- The precondition is fourteen "all" tests joined by "and": its value 1 gives every test the value 1.
theorem decode : AllReal a2 ∧ AllReal a3 ∧ AllReal a4 ∧ AllReal a8 ∧ AllReal a9 ∧ InRange a5 ∧ InRange a6 ∧ InRange a7 := by
  have e := congrFun h ValueIdx.ix0
  dsimp only [fn, fn_part1, fn_part2, fn_part3, fn_part4] at e
  obtain ⟨e, r7⟩ := IntOp.andi_eq_one.1 e
  obtain ⟨e, r6⟩ := IntOp.andi_eq_one.1 e
  obtain ⟨e, r5⟩ := IntOp.andi_eq_one.1 e
  iterate 6 obtain ⟨e, -⟩ := IntOp.andi_eq_one.1 e
  obtain ⟨e, f9⟩ := IntOp.andi_eq_one.1 e
  obtain ⟨e, f8⟩ := IntOp.andi_eq_one.1 e
  obtain ⟨e, f4⟩ := IntOp.andi_eq_one.1 e
  obtain ⟨f2, f3⟩ := IntOp.andi_eq_one.1 e
  exact ⟨all_real _ _ _ _ f2, all_real _ _ _ _ f3, all_real _ _ _ _ f4, all_real _ _ _ _ f8, all_real _ _ _ _ f9,
    all_range _ _ _ _ r5, all_range _ _ _ _ r6, all_range _ _ _ _ r7⟩

variable (a0 a1 a2 a3 a4 a5 a6 a7 a8 a9 a10 a11 a12 a13 a14 a15)

theorem real_arg2 : ∀ i : S320000x128.Idx, ∃ r : ℝ, a2 i = (r : EReal) := (decode h).1

theorem real_arg3 : ∀ i : S320000.Idx, ∃ r : ℝ, a3 i = (r : EReal) := (decode h).2.1

theorem real_arg4 : ∀ i : S100000.Idx, ∃ r : ℝ, a4 i = (r : EReal) := (decode h).2.2.1

theorem real_arg8 : ∀ i : S128.Idx, ∃ r : ℝ, a8 i = (r : EReal) := (decode h).2.2.2.1

theorem real_arg9 : ∀ i : S128.Idx, ∃ r : ℝ, a9 i = (r : EReal) := (decode h).2.2.2.2.1

theorem range_arg5 : ∀ q : S4096.Idx, 0 ≤ (a5 q).toInt ∧ (a5 q).toInt < 100000 := (decode h).2.2.2.2.2.1

theorem range_arg6 : ∀ q : S4096.Idx, 0 ≤ (a6 q).toInt ∧ (a6 q).toInt < 100000 := (decode h).2.2.2.2.2.2.1

theorem range_arg7 : ∀ q : S4096.Idx, 0 ≤ (a7 q).toInt ∧ (a7 q).toInt < 100000 := (decode h).2.2.2.2.2.2.2

end Cert.PreFacts

end
-- ==== Proof.EfeatReal.lean ====
import proofs.«425388_j31877247271269_3_alg».proof.Proof.RefSpec

noncomputable section

namespace Cert.EfeatReal

open Idealize.ShloMosaic Idealize.ShloMosaic.ValueIdx Cert.RefSpec

/-- A given feature is an entry of a real array; a time feature is the cosine of a real number, which is real. -/
theorem refEfeat_real_idx (src : IVec ⟨1, ![320000]⟩ 32) (ef : FVec Ideal ⟨2, ![320000, 128]⟩ .f32)
    (bt : FVec Ideal ⟨1, ![320000]⟩ .f32) (node_ts : FVec Ideal ⟨1, ![100000]⟩ .f32)
    (tw tb : FVec Ideal ⟨1, ![128]⟩ .f32)
    (hef : ∀ i, ∃ r : ℝ, ef i = (r : EReal)) (hbt : ∀ i, ∃ r : ℝ, bt i = (r : EReal))
    (hts : ∀ i, ∃ r : ℝ, node_ts i = (r : EReal)) (htw : ∀ i, ∃ r : ℝ, tw i = (r : EReal))
    (htb : ∀ i, ∃ r : ℝ, tb i = (r : EReal)) (i : (⟨2, ![320000, 256]⟩ : Shape).Idx) :
    ∃ r : ℝ, Cert.RefSpec.refEfeat src ef bt node_ts tw tb i = (r : EReal) := by
  show ∃ r : ℝ, efeatAt src ef bt node_ts tw tb ⟨(i 0).val, idx2_lt0 i⟩ ⟨(i 1).val, idx2_lt1 i⟩ = (r : EReal)
  generalize (⟨(i 0).val, idx2_lt0 i⟩ : Fin 320000) = e, (⟨(i 1).val, idx2_lt1 i⟩ : Fin 256) = k
  unfold efeatAt
  by_cases h : k.val < 128
  · rw [dif_pos h]
    exact hef _
  · rw [dif_neg h]
    obtain ⟨b, hb⟩ := hbt (ix1 e)
    obtain ⟨n, hn⟩ := hts (ix1 (rowOf (src (ix1 e))))
    obtain ⟨w, hw⟩ := htw (ix1 (⟨k.val - 128, by omega⟩ : Fin 128))
    obtain ⟨c, hc⟩ := htb (ix1 (⟨k.val - 128, by omega⟩ : Fin 128))
    exact ⟨Real.cos ((b - n) * w + c),
      by rw [hb, hn, hw, hc, ← EReal.coe_sub, ← EReal.coe_mul, ← EReal.coe_add, Ideal.cos_coe]⟩

end Cert.EfeatReal

end
-- ==== Proof.Final.lean ====
import proofs.«425388_j31877247271269_3_alg».proof.Proof.Chain1
import proofs.«425388_j31877247271269_3_alg».proof.Proof.Val1
import proofs.«425388_j31877247271269_3_alg».proof.Proof.Val2
import proofs.«425388_j31877247271269_3_alg».proof.Proof.Bridge1
import proofs.«425388_j31877247271269_3_alg».proof.Proof.PreFacts
import proofs.«425388_j31877247271269_3_alg».proof.Proof.EfeatReal

noncomputable section

namespace Cert.KernelIdeal.Val

open Idealize.ShloMosaic Idealize.ShloMosaic.TcCoe Idealize.ShloMosaic.ValueIdx
open Cert.KernelIdeal Cert.KernelIdeal.Gen Cert.KernelIdeal.Hand

variable (m : (ℓ : Loc nD τ sig) → Buf (Elt Ideal) ℓ) (ρ : Dev nD → PrngReg)

/-- What the precondition gives at core `c`: the five float inputs of the edge features hold reals, and the three query id vectors lie in the node table's range. -/
structure Good (c : Dev nD) : Prop where
  ef : ∀ i, ∃ r : ℝ, arg m c main_arg2 i = (r : EReal)
  bt : ∀ i, ∃ r : ℝ, arg m c main_arg3 i = (r : EReal)
  ts : ∀ i, ∃ r : ℝ, arg m c main_arg4 i = (r : EReal)
  tw : ∀ i, ∃ r : ℝ, arg m c main_arg8 i = (r : EReal)
  tb : ∀ i, ∃ r : ℝ, arg m c main_arg9 i = (r : EReal)
  s : ∀ q : S4096.Idx, 0 ≤ (arg m c main_arg5 q).toInt ∧ (arg m c main_arg5 q).toInt < 100000
  p : ∀ q : S4096.Idx, 0 ≤ (arg m c main_arg6 q).toInt ∧ (arg m c main_arg6 q).toInt < 100000
  n : ∀ q : S4096.Idx, 0 ≤ (arg m c main_arg7 q).toInt ∧ (arg m c main_arg7 q).toInt < 100000

theorem good_of_pre [Cert.Pre_finite_inputs.Facts] (c : Dev nD)
    (h : Cert.Pre_finite_inputs.fn (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) = fun _ => 1#1) :
    Good m c :=
  open Cert.PreFacts in
  ⟨real_arg2 _ _ _ _ _ _ _ _ _ _ _ _ _ _ _ _ h, real_arg3 _ _ _ _ _ _ _ _ _ _ _ _ _ _ _ _ h, real_arg4 _ _ _ _ _ _ _ _ _ _ _ _ _ _ _ _ h, real_arg8 _ _ _ _ _ _ _ _ _ _ _ _ _ _ _ _ h, real_arg9 _ _ _ _ _ _ _ _ _ _ _ _ _ _ _ _ h,
    range_arg5 _ _ _ _ _ _ _ _ _ _ _ _ _ _ _ _ h, range_arg6 _ _ _ _ _ _ _ _ _ _ _ _ _ _ _ _ h, range_arg7 _ _ _ _ _ _ _ _ _ _ _ _ _ _ _ _ h⟩

theorem efeat_real (c : Dev nD) (g : Good m c) (i : S320000x256.Idx) : ∃ r : ℝ, efeat m c i = (r : EReal) :=
  Cert.EfeatReal.refEfeat_real_idx _ _ _ _ _ _ g.ef g.bt g.ts g.tw g.tb i

/-- A vector reshaped to one row reads back, along that row, as itself. -/
theorem vec_row {a : ℕ} (b : (⟨1, ![a]⟩ : Shape).Idx → EReal) (h : (⟨1, ![a]⟩ : Shape).ShapeCasts ⟨2, ![1, a]⟩) :
    (fun u : (⟨1, ![a]⟩ : Shape).Idx => shapeCast ⟨2, ![1, a]⟩ b h (ix2 (0 : Fin 1) (u 0))) = b :=
  funext fun u => (shapeCast_a_1a_apply b h 0 (u 0)).trans (congrArg b (eq_ix1 u).symm)

/-- The gathered embeddings as a function of the inputs. -/
abbrev hgAt (c : Dev nD) : S12288x256.Idx → EReal :=
  hG (shapeCast S12288x1 (concatenate S12288 0 [⟨S4096, arg m c main_arg5⟩, ⟨S4096, arg m c main_arg6⟩, ⟨S4096, arg m c main_arg7⟩] concatenates_S4096_S4096_S4096_S12288_d0) shapeCasts_S12288_S12288x1)
    (shapeCast S1x320000 (arg m c main_arg1) shapeCasts_S320000_S1x320000) (efeat m c) (fun i => efeat m c i - efeat m c i)

/-- The column pairing row `q` with row `o + q` is the reference's logits against the query ids `oidx`, when row `o + q` sums the features of the edges into node `oidx q`. -/
theorem out_of (c : Dev nD) (g : Good m c) (o : ℕ) (ho : o ≤ 8192) (oidx : IVec S4096 32)
    (hr : ∀ q : S4096.Idx, 0 ≤ (oidx q).toInt ∧ (oidx q).toInt < 100000)
    (hrow : ∀ (q : Fin 4096) (k : Fin 256), hgAt m c (ix2 (⟨o + q.val, by omega⟩ : Fin 12288) k)
      = Cert.RefSpec.segSum (arg m c main_arg1) (efeat m c) (oidx (ix1 q)) k) :
    colAt (V5 m ρ) c o ho = Cert.RefSpec.refOut (arg m c main_arg0) (arg m c main_arg1) (arg m c main_arg2) (arg m c main_arg3) (arg m c main_arg4) (arg m c main_arg5) oidx (arg m c main_arg8) (arg m c main_arg9) (arg m c main_arg10) (arg m c main_arg11) (arg m c main_arg12) (arg m c main_arg13) (arg m c main_arg14) (arg m c main_arg15) := by
  unfold colAt
  rw [V5_v15 m ρ c, val1 (V3 m ρ) c, V3_v13 m ρ c, V3_v14 m ρ c, V3_v11_0 m ρ c, V3_v11_1 m ρ c,
    V5_arg10 m ρ c, V5_v16 m ρ c, V5_arg12 m ρ c, V5_v17 m ρ c, V5_arg14 m ρ c, V5_v18 m ρ c]
  funext i
  obtain ⟨q, u, rfl⟩ : ∃ (q : Fin 4096) (u : Fin 1), i = ix2 q u := ⟨i 0, i 1, eq_ix2 i⟩
  rw [pairG_ix2]
  show _ = Cert.RefSpec.refLogit _ _ _ _ _ _ _ _ _ _ _ _ _ _ _ q
  rw [Cert.RefSpec.refLogit_of_range _ _ _ _ _ _ _ _ _ _ _ _ _ _ _ q (g.s (ix1 q)) (hr (ix1 q))]
  unfold pairLogit
  rw [vec_row, vec_row, vec_row]
  rw [funext (hG_src _ _ _ _ _ (efeat_real m c g) q), funext (hrow q)]

theorem out_pos (c : Dev nD) (g : Good m c) :
    W6 m ρ c main_v19_0 = Cert.RefSpec.refOut (arg m c main_arg0) (arg m c main_arg1) (arg m c main_arg2) (arg m c main_arg3) (arg m c main_arg4) (arg m c main_arg5) (arg m c main_arg6) (arg m c main_arg8) (arg m c main_arg9) (arg m c main_arg10) (arg m c main_arg11) (arg m c main_arg12) (arg m c main_arg13) (arg m c main_arg14) (arg m c main_arg15) := by
  rw [W6_v19_0 m ρ c, val2_pos (V5 m ρ) c]
  exact out_of m ρ c g 4096 _ _ g.p (hG_pos _ _ _ _ _ (efeat_real m c g))

theorem out_neg (c : Dev nD) (g : Good m c) :
    W6 m ρ c main_v19_1 = Cert.RefSpec.refOut (arg m c main_arg0) (arg m c main_arg1) (arg m c main_arg2) (arg m c main_arg3) (arg m c main_arg4) (arg m c main_arg5) (arg m c main_arg7) (arg m c main_arg8) (arg m c main_arg9) (arg m c main_arg10) (arg m c main_arg11) (arg m c main_arg12) (arg m c main_arg13) (arg m c main_arg14) (arg m c main_arg15) := by
  rw [W6_v19_1 m ρ c, val2_neg (V5 m ρ) c]
  exact out_of m ρ c g 8192 _ _ g.n (hG_neg _ _ _ _ _ (efeat_real m c g))

end Cert.KernelIdeal.Val

end
-- ==== Proof.lean ====
import proofs.«425388_j31877247271269_3_alg».proof.Defs
import proofs.«425388_j31877247271269_3_alg».proof.Proof.Gen.Kernel
import proofs.«425388_j31877247271269_3_alg».proof.Proof.Gen.KernelIdeal
import proofs.«425388_j31877247271269_3_alg».proof.Proof.Gen.ReferenceIdeal
import proofs.«425388_j31877247271269_3_alg».proof.Proof.Gen.Pre_finite_inputs
import proofs.«425388_j31877247271269_3_alg».proof.Proof.K.Run
import proofs.«425388_j31877247271269_3_alg».proof.Proof.KI.Run
import proofs.«425388_j31877247271269_3_alg».proof.Proof.RefVal
import proofs.«425388_j31877247271269_3_alg».proof.Proof.Final

noncomputable section

namespace Cert.Proof

open Idealize.ShloMosaic Idealize.ShloMosaic.TcCoe Idealize.SL.Sem

theorem frame_p [Cert.Kernel.Facts] [Cert.Pre_finite_inputs.Facts] : Cert.frame_Kernel := fun m ρ _ =>
  Cert.Kernel.Hand.run_all m ρ (fun s h c => Cert.Kernel.Hand.args_kept m ρ s h c)

theorem frame_pi [Cert.KernelIdeal.Facts] [Cert.Pre_finite_inputs.Facts] : Cert.frame_KernelIdeal := fun m ρ _ =>
  Cert.KernelIdeal.Hand.run_all m ρ (fun s h c => Cert.KernelIdeal.Hand.args_kept m ρ s h c)

/-- Narrowing to bf16 and widening back is the identity on the extended reals. -/
theorem preserves : Cert.preserves_Kernel_KernelIdeal :=
  IdealRules.truncf_extf.statement Cert.KernelIdeal.S6400x256 .f32 .bf16

theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.W6 m ρ c Cert.KernelIdeal.main_v19_0,
    fun c => Cert.KernelIdeal.Hand.W6 m ρ c Cert.KernelIdeal.main_v19_1, ?_, ?_⟩
  · exact Cert.KernelIdeal.Hand.run_all m ρ (fun s h c =>
      ⟨h c _ (Cert.KernelIdeal.Hand.mem_uc Cert.KernelIdeal.main_v19_0 (by decide)),
       h c _ (Cert.KernelIdeal.Hand.mem_uc Cert.KernelIdeal.main_v19_1 (by decide)),
       Cert.KernelIdeal.Hand.args_kept m ρ s h c⟩)
  · refine (θ_run Cert.ReferenceIdeal.defs _ _).mono (fun _ h c => ?_) (Cert.ReferenceIdeal.RefVal.ref_run m' ρ')
    obtain ⟨a0, a1, a2, a3, a4, a5, a6, a7, a8, a9, a10, a11, a12, a13, a14, a15⟩ := hagree c
    have hg := Cert.KernelIdeal.Val.good_of_pre m c (hpre c)
    refine ⟨(h c).1.trans ?_, (h c).2.1.trans ?_, (h c).2.2⟩
    · rw [a0, a1, a2, a3, a4, a5, a6, a8, a9, a10, a11, a12, a13, a14, a15]
      exact (Cert.KernelIdeal.Val.out_pos m ρ c hg).symm
    · rw [a0, a1, a2, a3, a4, a5, a7, a8, a9, a10, a11, a12, a13, a14, a15]
      exact (Cert.KernelIdeal.Val.out_neg m ρ c hg).symm

theorem claim : Cert.Claim :=
  ⟨Cert.Kernel.Gen.facts, Cert.KernelIdeal.Gen.facts, Cert.ReferenceIdeal.Gen.facts, Cert.Pre_finite_inputs.Gen.facts,
    @frame_p Cert.Kernel.Gen.facts Cert.Pre_finite_inputs.Gen.facts,
    @frame_pi Cert.KernelIdeal.Gen.facts Cert.Pre_finite_inputs.Gen.facts,
    @Cert.ReferenceIdeal.RefVal.frame_ri Cert.Pre_finite_inputs.Gen.facts, preserves,
    @algebraic Cert.KernelIdeal.Gen.facts Cert.ReferenceIdeal.Gen.facts Cert.Pre_finite_inputs.Gen.facts⟩

end Cert.Proof

end
